-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v94)) (v3 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v94) = v2 c
          ∧ r.2.mem ((c.tc : Thread Cert.KernelIdeal.nD Cert.KernelIdeal.τ).loc Cert.KernelIdeal.main_v99) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v109) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x64 : Shape := ⟨2, ![50000, 64]⟩
abbrev S400000 : Shape := ⟨1, ![400000]⟩
abbrev S128x64 : Shape := ⟨2, ![128, 64]⟩
abbrev S64 : Shape := ⟨1, ![64]⟩
abbrev S129x64 : Shape := ⟨2, ![129, 64]⟩
abbrev S64x1 : Shape := ⟨2, ![64, 1]⟩
abbrev S1600000 : Shape := ⟨1, ![1600000]⟩
abbrev S200000 : Shape := ⟨1, ![200000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S400000 : S_.BroadcastsInDim S400000 (![] : Fin 0 → Fin S400000.rank)
  reducesTo_S400000_S_d0 : S400000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S129x64 : S_.BroadcastsInDim S129x64 (![] : Fin 0 → Fin S129x64.rank)
  reducesTo_S129x64_S_d0_1 : S129x64.ReducesTo [0, 1] S_
  bcast_S_S64x1 : S_.BroadcastsInDim S64x1 (![] : Fin 0 → Fin S64x1.rank)
  reducesTo_S64x1_S_d0_1 : S64x1.ReducesTo [0, 1] S_

variable [Facts]

def fn_part3 {F : FTy → Type} [FloatOps F] (main_arg11 : FVec F S64x1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  main_v58

def fn_part2 {F : FTy → Type} [FloatOps F] (main_arg7 : FVec F S128x64 .f32) (main_arg8 : FVec F S64 .f32) (main_arg9 : FVec F S129x64 .f32) (main_arg10 : FVec F S64 .f32) (main_arg11 : FVec F S64x1 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S129x64 .f32 := Host.absf main_arg9
  let main_cst_16 : FVec F S_ .f32 := constant S_ .f32 0x7F800000#32
  let main_v45 : FVec F S129x64 .f32 := broadcastInDim S129x64 ![] bcast_S_S129x64 main_cst_16
  let main_v46 : IVec S129x64 1 := cmpf .olt main_v44 main_v45
  let main_c_17 : IVec S_ 1 := constantI S_ 1 1#1
  let main_v47 : IVec S_ 1 := (fun x v => Host.reduce IntOp.andi x v reducesTo_S129x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_v48 main_v49 main_v50

def fn_part1 {F : FTy → Type} [FloatOps F] (main_arg4 : FVec F S400000 .f32) (main_arg5 : FVec F S128x64 .f32) (main_arg6 : FVec F S64 .f32) (main_arg7 : FVec F S128x64 .f32) (main_arg8 : FVec F S64 .f32) (main_arg9 : FVec F S129x64 .f32) (main_arg10 : FVec F S64 .f32) (main_arg11 : FVec F S64x1 .f32) (main_v13 : IVec S_ 1) (main_v16 : IVec S400000 1) : IVec S_ 1 :=
  let main_c_5 : IVec S_ 1 := constantI S_ 1 1#1
  let main_v17 : IVec S_ 1 := (fun x v => Host.reduce IntOp.andi x v reducesTo_S400000_S_d0 h_S_) main_v16 main_c_5
  let main_v18 : IVec S_ 1 := andi main_v13 main_v17
  let main_v19 : FVec F S400000 .f32 := Host.absf main_arg4
  let main_cst_6 : FVec F S_ .f32 := constant S_ .f32 0x7F800000#32
  let main_v20 : FVec F S400000 .f32 := broadcastInDim S400000 ![] bcast_S_S400000 main_cst_6
  let main_v21 : IVec S400000 1 := cmpf .olt main_v19 main_v20
  let main_c_7 : IVec S_ 1 := constantI S_ 1 1#1
  let main_v22 : IVec S_ 1 := (fun x v => Host.reduce IntOp.andi x v reducesTo_S400000_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S50000x128 .f32) (main_arg2 : FVec F S50000x64 .f32) (main_arg3 : FVec F S400000 .f32) (main_arg4 : FVec F S400000 .f32) (main_arg5 : FVec F S128x64 .f32) (main_arg6 : FVec F S64 .f32) (main_arg7 : FVec F S128x64 .f32) (main_arg8 : FVec F S64 .f32) (main_arg9 : FVec F S129x64 .f32) (main_arg10 : FVec F S64 .f32) (main_arg11 : FVec F S64x1 .f32) (main_arg12 : IVec S1600000 32) (main_arg13 : IVec S1600000 32) (main_arg14 : IVec S200000 32) (main_arg15 : IVec S200000 32) (main_arg16 : IVec S200000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S400000 .f32 := Host.absf main_arg3
  let main_cst_4 : FVec F S_ .f32 := constant S_ .f32 0x7F800000#32
  let main_v15 : FVec F S400000 .f32 := broadcastInDim S400000 ![] bcast_S_S400000 main_cst_4
  let main_v16 : IVec S400000 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S50000x64 : Shape := ⟨2, ![50000, 64]⟩
abbrev S400000 : Shape := ⟨1, ![400000]⟩
abbrev S128x64 : Shape := ⟨2, ![128, 64]⟩
abbrev S64 : Shape := ⟨1, ![64]⟩
abbrev S129x64 : Shape := ⟨2, ![129, 64]⟩
abbrev S64x1 : Shape := ⟨2, ![64, 1]⟩
abbrev S1600000 : Shape := ⟨1, ![1600000]⟩
abbrev S200000 : Shape := ⟨1, ![200000]⟩
abbrev S1x64 : Shape := ⟨2, ![1, 64]⟩
abbrev S5000x128 : Shape := ⟨2, ![5000, 128]⟩
abbrev S5000x64 : Shape := ⟨2, ![5000, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S200000x1 : Shape := ⟨2, ![200000, 1]⟩
abbrev S200000x64 : Shape := ⟨2, ![200000, 64]⟩
abbrev S200000x4 : Shape := ⟨2, ![200000, 4]⟩
abbrev S64x64 : Shape := ⟨2, ![64, 64]⟩
abbrev S5000x4 : Shape := ⟨2, ![5000, 4]⟩
abbrev S5000x1 : Shape := ⟨2, ![5000, 1]⟩

abbrev nBuf : Space → Nat
  | .hbm => 140
  | .vmem => 27
  | .smem => 0
  | _ => 0

abbrev hbmTy0_0 (i : Nat) : BufTy := match i % 128 with
  | 0 => ⟨S50000x128, .f32⟩
  | 1 => ⟨S50000x128, .f32⟩
  | 2 => ⟨S50000x64, .f32⟩
  | 3 => ⟨S400000, .f32⟩
  | 4 => ⟨S400000, .f32⟩
  | 5 => ⟨S128x64, .f32⟩
  | 6 => ⟨S64, .f32⟩
  | 7 => ⟨S128x64, .f32⟩
  | 8 => ⟨S64, .f32⟩
  | 9 => ⟨S129x64, .f32⟩
  | 10 => ⟨S64, .f32⟩
  | 11 => ⟨S64x1, .f32⟩
  | 12 => ⟨S1600000, .i32⟩
  | 13 => ⟨S1600000, .i32⟩
  | 14 => ⟨S200000, .i32⟩
  | 15 => ⟨S200000, .i32⟩
  | 16 => ⟨S200000, .i32⟩
  | 17 => ⟨S1x64, .f32⟩
  | 18 => ⟨S50000x64, .f32⟩
  | 19 => ⟨S1x64, .f32⟩
  | 20 => ⟨S50000x64, .f32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S_, .f32⟩
  | 33 => ⟨S100000, .f32⟩
  | 34 => ⟨S100000, .f32⟩
  | 35 => ⟨S100000, .f32⟩
  | 36 => ⟨S100000x1, .f32⟩
  | 37 => ⟨S_, .f32⟩
  | 38 => ⟨S_, .f32⟩
  | 39 => ⟨S100000, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S100000x64, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x64, .f32⟩
  | 76 => ⟨S_, .f32⟩
  | 77 => ⟨S100000x64, .f32⟩
  | 78 => ⟨S1600000x1, .i32⟩
  | 79 => ⟨S100000x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S50000x64, .f32⟩
  | 87 => ⟨S50000x64, .f32⟩
  | 88 => ⟨S50000x64, .f32⟩
  | 89 => ⟨S_, .i32⟩
  | 90 => ⟨S200000, .i32⟩
  | 91 => ⟨S200000, .i1⟩
  | 92 => ⟨S_, .i32⟩
  | 93 => ⟨S200000, .i32⟩
  | 94 => ⟨S200000, .i32⟩
  | 95 => ⟨S200000, .i32⟩
  | 96 => ⟨S200000x1, .i32⟩
  | 97 => ⟨S200000x64, .f32⟩
  | 98 => ⟨S_, .i32⟩
  | 99 => ⟨S200000, .i32⟩
  | 100 => ⟨S200000, .i1⟩
  | 101 => ⟨S_, .i32⟩
  | 102 => ⟨S200000, .i32⟩
  | 103 => ⟨S200000, .i32⟩
  | 104 => ⟨S200000, .i32⟩
  | 105 => ⟨S200000x1, .i32⟩
  | 106 => ⟨S200000x64, .f32⟩
  | 107 => ⟨S_, .i32⟩
  | 108 => ⟨S200000, .i32⟩
  | 109 => ⟨S200000, .i1⟩
  | 110 => ⟨S_, .i32⟩
  | 111 => ⟨S200000, .i32⟩
  | 112 => ⟨S200000, .i32⟩
  | 113 => ⟨S200000, .i32⟩
  | 114 => ⟨S200000x1, .i32⟩
  | 115 => ⟨S200000x64, .f32⟩
  | 116 => ⟨S200000, .f32⟩
  | 117 => ⟨S200000, .f32⟩
  | 118 => ⟨S200000, .f32⟩
  | 119 => ⟨S200000, .f32⟩
  | 120 => ⟨S200000x1, .f32⟩
  | 121 => ⟨S200000x1, .f32⟩
  | 122 => ⟨S200000x1, .f32⟩
  | 123 => ⟨S200000x1, .f32⟩
  | 124 => ⟨S200000x4, .f32⟩
  | 125 => ⟨S64x64, .f32⟩
  | 126 => ⟨S64x64, .f32⟩
  | 127 => ⟨S1x64, .f32⟩
  | _ => ⟨S50000x128, .f32⟩

abbrev hbmTy0_1 (i : Nat) : BufTy := match i % 128 with
  | 0 => ⟨S1x64, .f32⟩
  | 1 => ⟨S200000x4, .f32⟩
  | 2 => ⟨S200000x1, .f32⟩
  | 3 => ⟨S200000, .f32⟩
  | 4 => ⟨S200000x1, .f32⟩
  | 5 => ⟨S200000, .f32⟩
  | 6 => ⟨S400000, .f32⟩
  | 7 => ⟨S200000x1, .f32⟩
  | 8 => ⟨S200000, .f32⟩
  | 9 => ⟨S200000x1, .f32⟩
  | 10 => ⟨S200000, .f32⟩
  | 11 => ⟨S400000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x128, .f32⟩
  | .local _ .vmem, ⟨7, _⟩ => ⟨S5000x128, .f32⟩
  | .local _ .vmem, ⟨8, _⟩ => ⟨S128x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x4, .f32⟩
  | .local _ .vmem, ⟨19, _⟩ => ⟨S5000x4, .f32⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S1x64, .f32⟩
  | .local _ .vmem, ⟨24, _⟩ => ⟨S64x1, .f32⟩
  | .local _ .vmem, ⟨25, _⟩ => ⟨S5000x4, .f32⟩
  | .local _ .vmem, ⟨26, _⟩ => ⟨S5000x4, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c : Ref sig .tc := ⟨.hbm, 46, rfl⟩
abbrev main_v20 : Ref sig .tc := ⟨.hbm, 47, rfl⟩
abbrev main_v21 : Ref sig .tc := ⟨.hbm, 48, rfl⟩
abbrev main_c_4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_7 : Ref sig .tc := ⟨.hbm, 67, rfl⟩
abbrev main_v37 : Ref sig .tc := ⟨.hbm, 68, rfl⟩
abbrev main_v38 : Ref sig .tc := ⟨.hbm, 69, rfl⟩
abbrev main_c_8 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_9 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_10 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_11 : Ref sig .tc := ⟨.hbm, 89, rfl⟩
abbrev main_v55 : Ref sig .tc := ⟨.hbm, 90, rfl⟩
abbrev main_v56 : Ref sig .tc := ⟨.hbm, 91, rfl⟩
abbrev main_c_12 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_13 : Ref sig .tc := ⟨.hbm, 98, rfl⟩
abbrev main_v62 : Ref sig .tc := ⟨.hbm, 99, rfl⟩
abbrev main_v63 : Ref sig .tc := ⟨.hbm, 100, rfl⟩
abbrev main_c_14 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_15 : Ref sig .tc := ⟨.hbm, 107, rfl⟩
abbrev main_v69 : Ref sig .tc := ⟨.hbm, 108, rfl⟩
abbrev main_v70 : Ref sig .tc := ⟨.hbm, 109, rfl⟩
abbrev main_c_16 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg9_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem9_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x4 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x4 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S50000x64_S50000x64_S100000x64_d0 : Shape.Concatenates [S50000x64, S50000x64] S100000x64 0
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  slices_S100000x64_S50000x64_0_0 : S100000x64.Slices ![0, 0] S50000x64
  slices_S100000x64_S50000x64_50000_0 : S100000x64.Slices ![50000, 0] S50000x64
  bcast_S_S200000 : S_.BroadcastsInDim S200000 (![] : Fin 0 → Fin S200000.rank)
  bcast_S200000_S200000x1_0 : S200000.BroadcastsInDim S200000x1 (![0] : Fin 1 → Fin S200000x1.rank)
  slices_S400000_S200000_0 : S400000.Slices ![0] S200000
  slices_S400000_S200000_200000 : S400000.Slices ![200000] S200000
  concatenates_S200000x1_S200000x1_S200000x1_S200000x1_S200000x4_d1 : Shape.Concatenates [S200000x1, S200000x1, S200000x1, S200000x1] S200000x4 1
  slices_S129x64_S64x64_0_0 : S129x64.Slices ![0, 0] S64x64
  slices_S129x64_S64x64_64_0 : S129x64.Slices ![64, 0] S64x64
  slices_S129x64_S1x64_128_0 : S129x64.Slices ![128, 0] S1x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  inb_S5000x4_S5000x1_0_0 : ∀ a, (![0, 0] : Fin 2 → Nat) a + S5000x1.size a ≤ S5000x4.size a
  h_S5000x1 : 0 < S5000x1.numel
  shapeCasts_S5000x1_S5000x1 : S5000x1.ShapeCasts S5000x1
  broadcasts_S5000x1_S5000x64 : S5000x1.Broadcasts S5000x64
  inb_S5000x4_S5000x1_0_1 : ∀ a, (![0, 1] : Fin 2 → Nat) a + S5000x1.size a ≤ S5000x4.size a
  inb_S5000x4_S5000x1_0_2 : ∀ a, (![0, 2] : Fin 2 → Nat) a + S5000x1.size a ≤ S5000x4.size a
  inb_S5000x4_S5000x1_0_3 : ∀ a, (![0, 3] : Fin 2 → Nat) a + S5000x1.size a ≤ S5000x4.size a
  slices_S200000x4_S200000x1_0_0 : S200000x4.Slices ![0, 0] S200000x1
  shapeCasts_S200000x1_S200000 : S200000x1.ShapeCasts S200000
  slices_S200000x4_S200000x1_0_1 : S200000x4.Slices ![0, 1] S200000x1
  concatenates_S200000_S200000_S400000_d0 : Shape.Concatenates [S200000, S200000] S400000 0
  slices_S200000x4_S200000x1_0_2 : S200000x4.Slices ![0, 2] S200000x1
  slices_S200000x4_S200000x1_0_3 : S200000x4.Slices ![0, 3] S200000x1
  dot_S5000x128_S128x64_S5000x64_1_0_0_1_n_n_wf : DotDims.WF S5000x128 S128x64 S5000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S50000x64_S200000x1_S200000x64_1_0_n_n_0_1_164_wf : GatherDims.WF S50000x64 S200000x1 S200000x64 [1] [0] [] [0] [] 1 ![1, 64]
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S200000x64.size a
  hwx2_0 : ∀ i : grid2.Coords, EltTy.bits .f32 = 32 ∨ (Rect.block (s := S200000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S200000x64.size a
  hwx2_1 : ∀ i : grid2.Coords, EltTy.bits .f32 = 32 ∨ (Rect.block (s := S200000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S200000x64.size a
  hwx2_2 : ∀ i : grid2.Coords, EltTy.bits .f32 = 32 ∨ (Rect.block (s := S200000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x4.size a ≤ S200000x4.size a
  hwx2_3 : ∀ i : grid2.Coords, EltTy.bits .f32 = 32 ∨ (Rect.block (s := S200000x4) S5000x4.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x1.size a ≤ S64x1.size a
  hwx2_8 : ∀ i : grid2.Coords, EltTy.bits .f32 = 32 ∨ (Rect.block (s := S64x1) S64x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x4.size a ≤ S200000x4.size a
  hwx2_9 : ∀ i : grid2.Coords, EltTy.bits .f32 = 32 ∨ (Rect.block (s := S200000x4) S5000x4.size (cc2_transform_9 i) (hinb2_9 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v84) S5000x4.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v85) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v86) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v87) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v88) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg11) S64x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v89) S5000x4.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S50000x64 : Shape := ⟨2, ![50000, 64]⟩
abbrev S400000 : Shape := ⟨1, ![400000]⟩
abbrev S128x64 : Shape := ⟨2, ![128, 64]⟩
abbrev S64 : Shape := ⟨1, ![64]⟩
abbrev S129x64 : Shape := ⟨2, ![129, 64]⟩
abbrev S64x1 : Shape := ⟨2, ![64, 1]⟩
abbrev S1600000 : Shape := ⟨1, ![1600000]⟩
abbrev S200000 : Shape := ⟨1, ![200000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S1600000x64 : Shape := ⟨2, ![1600000, 64]⟩
abbrev S200000x1 : Shape := ⟨2, ![200000, 1]⟩
abbrev S200000x64 : Shape := ⟨2, ![200000, 64]⟩
abbrev S400000x64 : Shape := ⟨2, ![400000, 64]⟩
abbrev S400000x1 : Shape := ⟨2, ![400000, 1]⟩
abbrev S400000x129 : Shape := ⟨2, ![400000, 129]⟩

abbrev nBuf : Space → Nat
  | .hbm => 184
  | .vmem => 0
  | .smem => 0
  | _ => 0

abbrev hbmTy0_0 (i : Nat) : BufTy := match i % 128 with
  | 0 => ⟨S50000x128, .f32⟩
  | 1 => ⟨S50000x128, .f32⟩
  | 2 => ⟨S50000x64, .f32⟩
  | 3 => ⟨S400000, .f32⟩
  | 4 => ⟨S400000, .f32⟩
  | 5 => ⟨S128x64, .f32⟩
  | 6 => ⟨S64, .f32⟩
  | 7 => ⟨S128x64, .f32⟩
  | 8 => ⟨S64, .f32⟩
  | 9 => ⟨S129x64, .f32⟩
  | 10 => ⟨S64, .f32⟩
  | 11 => ⟨S64x1, .f32⟩
  | 12 => ⟨S1600000, .i32⟩
  | 13 => ⟨S1600000, .i32⟩
  | 14 => ⟨S200000, .i32⟩
  | 15 => ⟨S200000, .i32⟩
  | 16 => ⟨S200000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S100000, .f32⟩
  | 32 => ⟨S100000x1, .f32⟩
  | 33 => ⟨S_, .f32⟩
  | 34 => ⟨S_, .f32⟩
  | 35 => ⟨S100000, .f32⟩
  | 36 => ⟨S100000, .f32⟩
  | 37 => ⟨S100000, .f32⟩
  | 38 => ⟨S100000x1, .f32⟩
  | 39 => ⟨S50000x64, .f32⟩
  | 40 => ⟨S1x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S50000x64, .f32⟩
  | 47 => ⟨S1x64, .f32⟩
  | 48 => ⟨S50000x64, .f32⟩
  | 49 => ⟨S50000x64, .f32⟩
  | 50 => ⟨S_, .f32⟩
  | 51 => ⟨S50000x64, .f32⟩
  | 52 => ⟨S50000x64, .f32⟩
  | 53 => ⟨S100000x64, .f32⟩
  | 54 => ⟨S100000x64, .f32⟩
  | 55 => ⟨S100000x64, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S100000x64, .f32⟩
  | 70 => ⟨S100000x64, .f32⟩
  | 71 => ⟨S50000x64, .f32⟩
  | 72 => ⟨S_, .f32⟩
  | 73 => ⟨S50000x64, .f32⟩
  | 74 => ⟨S50000x64, .f32⟩
  | 75 => ⟨S50000x64, .f32⟩
  | 76 => ⟨S50000x64, .f32⟩
  | 77 => ⟨S_, .f32⟩
  | 78 => ⟨S50000x64, .f32⟩
  | 79 => ⟨S50000x64, .f32⟩
  | 80 => ⟨S50000x64, .f32⟩
  | 81 => ⟨S100000x64, .f32⟩
  | 82 => ⟨S100000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S100000x64, .f32⟩
  | 97 => ⟨S100000x64, .f32⟩
  | 98 => ⟨S50000x64, .f32⟩
  | 99 => ⟨S_, .f32⟩
  | 100 => ⟨S50000x64, .f32⟩
  | 101 => ⟨S50000x64, .f32⟩
  | 102 => ⟨S50000x64, .f32⟩
  | 103 => ⟨S50000x64, .f32⟩
  | 104 => ⟨S_, .f32⟩
  | 105 => ⟨S50000x64, .f32⟩
  | 106 => ⟨S50000x64, .f32⟩
  | 107 => ⟨S50000x64, .f32⟩
  | 108 => ⟨S50000x64, .f32⟩
  | 109 => ⟨S_, .i32⟩
  | 110 => ⟨S200000, .i32⟩
  | 111 => ⟨S200000, .i1⟩
  | 112 => ⟨S_, .i32⟩
  | 113 => ⟨S200000, .i32⟩
  | 114 => ⟨S200000, .i32⟩
  | 115 => ⟨S200000, .i32⟩
  | 116 => ⟨S200000x1, .i32⟩
  | 117 => ⟨S200000x64, .f32⟩
  | 118 => ⟨S_, .i32⟩
  | 119 => ⟨S200000, .i32⟩
  | 120 => ⟨S200000, .i1⟩
  | 121 => ⟨S_, .i32⟩
  | 122 => ⟨S200000, .i32⟩
  | 123 => ⟨S200000, .i32⟩
  | 124 => ⟨S200000, .i32⟩
  | 125 => ⟨S200000x1, .i32⟩
  | 126 => ⟨S200000x64, .f32⟩
  | 127 => ⟨S_, .i32⟩
  | _ => ⟨S50000x128, .f32⟩

abbrev hbmTy0_1 (i : Nat) : BufTy := match i % 128 with
  | 0 => ⟨S200000, .i32⟩
  | 1 => ⟨S200000, .i1⟩
  | 2 => ⟨S_, .i32⟩
  | 3 => ⟨S200000, .i32⟩
  | 4 => ⟨S200000, .i32⟩
  | 5 => ⟨S200000, .i32⟩
  | 6 => ⟨S200000x1, .i32⟩
  | 7 => ⟨S200000x64, .f32⟩
  | 8 => ⟨S400000x64, .f32⟩
  | 9 => ⟨S400000x64, .f32⟩
  | 10 => ⟨S400000x1, .f32⟩
  | 11 => ⟨S400000x129, .f32⟩
  | 12 => ⟨S400000x64, .f32⟩
  | 13 => ⟨S1x64, .f32⟩
  | 14 => ⟨S400000x64, .f32⟩
  | 15 => ⟨S400000x64, .f32⟩
  | 16 => ⟨S_, .f32⟩
  | 17 => ⟨S400000x64, .f32⟩
  | 18 => ⟨S400000x64, .i1⟩
  | 19 => ⟨S_, .f32⟩
  | 20 => ⟨S400000x64, .f32⟩
  | 21 => ⟨S400000x64, .i1⟩
  | 22 => ⟨S_, .f32⟩
  | 23 => ⟨S_, .f32⟩
  | 24 => ⟨S400000x64, .f32⟩
  | 25 => ⟨S400000x64, .f32⟩
  | 26 => ⟨S400000x64, .f32⟩
  | 27 => ⟨S_, .f32⟩
  | 28 => ⟨S400000x64, .f32⟩
  | 29 => ⟨S400000x64, .f32⟩
  | 30 => ⟨S400000x64, .f32⟩
  | 31 => ⟨S400000x1, .f32⟩
  | 32 => ⟨S400000, .f32⟩
  | 33 => ⟨S400000x1, .f32⟩
  | 34 => ⟨S400000x129, .f32⟩
  | 35 => ⟨S400000x64, .f32⟩
  | 36 => ⟨S1x64, .f32⟩
  | 37 => ⟨S400000x64, .f32⟩
  | 38 => ⟨S400000x64, .f32⟩
  | 39 => ⟨S_, .f32⟩
  | 40 => ⟨S400000x64, .f32⟩
  | 41 => ⟨S400000x64, .i1⟩
  | 42 => ⟨S_, .f32⟩
  | 43 => ⟨S400000x64, .f32⟩
  | 44 => ⟨S400000x64, .i1⟩
  | 45 => ⟨S_, .f32⟩
  | 46 => ⟨S_, .f32⟩
  | 47 => ⟨S400000x64, .f32⟩
  | 48 => ⟨S400000x64, .f32⟩
  | 49 => ⟨S400000x64, .f32⟩
  | 50 => ⟨S_, .f32⟩
  | 51 => ⟨S400000x64, .f32⟩
  | 52 => ⟨S400000x64, .f32⟩
  | 53 => ⟨S400000x64, .f32⟩
  | 54 => ⟨S400000x1, .f32⟩
  | 55 => ⟨S400000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_call2_cst : Ref sig .tc := ⟨.hbm, 43, rfl⟩
abbrev main_call2_v0 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_call3_cst : Ref sig .tc := ⟨.hbm, 50, rfl⟩
abbrev main_call3_v0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c : Ref sig .tc := ⟨.hbm, 56, rfl⟩
abbrev main_v26 : Ref sig .tc := ⟨.hbm, 57, rfl⟩
abbrev main_v27 : Ref sig .tc := ⟨.hbm, 58, rfl⟩
abbrev main_c_4 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_6 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_7 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_8 : Ref sig .tc := ⟨.hbm, 83, rfl⟩
abbrev main_v48 : Ref sig .tc := ⟨.hbm, 84, rfl⟩
abbrev main_v49 : Ref sig .tc := ⟨.hbm, 85, rfl⟩
abbrev main_c_9 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_10 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_11 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_12 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_c_13 : Ref sig .tc := ⟨.hbm, 109, rfl⟩
abbrev main_v69 : Ref sig .tc := ⟨.hbm, 110, rfl⟩
abbrev main_v70 : Ref sig .tc := ⟨.hbm, 111, rfl⟩
abbrev main_c_14 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_c_15 : Ref sig .tc := ⟨.hbm, 118, rfl⟩
abbrev main_v76 : Ref sig .tc := ⟨.hbm, 119, rfl⟩
abbrev main_v77 : Ref sig .tc := ⟨.hbm, 120, rfl⟩
abbrev main_c_16 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_c_17 : Ref sig .tc := ⟨.hbm, 127, rfl⟩
abbrev main_v83 : Ref sig .tc := ⟨.hbm, 128, rfl⟩
abbrev main_v84 : Ref sig .tc := ⟨.hbm, 129, rfl⟩
abbrev main_c_18 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_call4_cst : Ref sig .tc := ⟨.hbm, 144, rfl⟩
abbrev main_call4_v0 : Ref sig .tc := ⟨.hbm, 145, rfl⟩
abbrev main_call4_v1 : Ref sig .tc := ⟨.hbm, 146, rfl⟩
abbrev main_call4_cst_0 : Ref sig .tc := ⟨.hbm, 147, rfl⟩
abbrev main_call4_v2 : Ref sig .tc := ⟨.hbm, 148, rfl⟩
abbrev main_call4_v3 : Ref sig .tc := ⟨.hbm, 149, rfl⟩
abbrev main_call4_cst_1 : Ref sig .tc := ⟨.hbm, 150, rfl⟩
abbrev main_call4_call0_v0 : Ref sig .tc := ⟨.hbm, 151, rfl⟩
abbrev main_call4_call0_v1 : Ref sig .tc := ⟨.hbm, 152, rfl⟩
abbrev main_call4_v4 : Ref sig .tc := ⟨.hbm, 153, rfl⟩
abbrev main_call4_v5 : Ref sig .tc := ⟨.hbm, 154, rfl⟩
abbrev main_call4_cst_2 : Ref sig .tc := ⟨.hbm, 155, rfl⟩
abbrev main_call4_v6 : Ref sig .tc := ⟨.hbm, 156, rfl⟩
abbrev main_call4_v7 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_call5_cst : Ref sig .tc := ⟨.hbm, 167, rfl⟩
abbrev main_call5_v0 : Ref sig .tc := ⟨.hbm, 168, rfl⟩
abbrev main_call5_v1 : Ref sig .tc := ⟨.hbm, 169, rfl⟩
abbrev main_call5_cst_0 : Ref sig .tc := ⟨.hbm, 170, rfl⟩
abbrev main_call5_v2 : Ref sig .tc := ⟨.hbm, 171, rfl⟩
abbrev main_call5_v3 : Ref sig .tc := ⟨.hbm, 172, rfl⟩
abbrev main_call5_cst_1 : Ref sig .tc := ⟨.hbm, 173, rfl⟩
abbrev main_call5_call0_v0 : Ref sig .tc := ⟨.hbm, 174, rfl⟩
abbrev main_call5_call0_v1 : Ref sig .tc := ⟨.hbm, 175, rfl⟩
abbrev main_call5_v4 : Ref sig .tc := ⟨.hbm, 176, rfl⟩
abbrev main_call5_v5 : Ref sig .tc := ⟨.hbm, 177, rfl⟩
abbrev main_call5_cst_2 : Ref sig .tc := ⟨.hbm, 178, rfl⟩
abbrev main_call5_v6 : Ref sig .tc := ⟨.hbm, 179, rfl⟩
abbrev main_call5_v7 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S50000x64_S50000x64_S100000x64_d0 : Shape.Concatenates [S50000x64, S50000x64] S100000x64 0
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  slices_S100000x64_S50000x64_0_0 : S100000x64.Slices ![0, 0] S50000x64
  slices_S100000x64_S50000x64_50000_0 : S100000x64.Slices ![50000, 0] S50000x64
  bcast_S_S200000 : S_.BroadcastsInDim S200000 (![] : Fin 0 → Fin S200000.rank)
  bcast_S200000_S200000x1_0 : S200000.BroadcastsInDim S200000x1 (![0] : Fin 1 → Fin S200000x1.rank)
  concatenates_S200000x64_S200000x64_S400000x64_d0 : Shape.Concatenates [S200000x64, S200000x64] S400000x64 0
  bcast_S400000_S400000x1_0 : S400000.BroadcastsInDim S400000x1 (![0] : Fin 1 → Fin S400000x1.rank)
  concatenates_S400000x64_S400000x64_S400000x1_S400000x129_d1 : Shape.Concatenates [S400000x64, S400000x64, S400000x1] S400000x129 1
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  shapeCasts_S400000x1_S400000 : S400000x1.ShapeCasts S400000
  scatter_S100000_S1600000x1_S1600000_n_0_0_1_wf : ScatterDims.WF S100000 S1600000x1 S1600000 [] [0] [0] 1
  dot_S50000x128_S128x64_S50000x64_1_0_0_1_n_n_wf : DotDims.WF S50000x128 S128x64 S50000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S50000x64_S200000x1_S200000x64_1_0_n_n_0_1_164_wf : GatherDims.WF S50000x64 S200000x1 S200000x64 [1] [0] [] [0] [] 1 ![1, 64]
  dot_S400000x129_S129x64_S400000x64_1_0_0_1_n_n_wf : DotDims.WF S400000x129 S129x64 S400000x64 [1] [0] [0] [1] [] []
  dot_S400000x64_S64x1_S400000x1_1_0_0_1_n_n_wf : DotDims.WF S400000x64 S64x1 S400000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf
def dot_S400000x129_S129x64_S400000x64_1_0_0_1_n_n : DotDims S400000x129 S129x64 S400000x64 where
  lhsContracting := [1]
  rhsContracting := [0]
  lhsNonContracting := [0]
  rhsNonContracting := [1]
  lhsBatch := []
  rhsBatch := []
  wf := dot_S400000x129_S129x64_S400000x64_1_0_0_1_n_n_wf
def dot_S400000x64_S64x1_S400000x1_1_0_0_1_n_n : DotDims S400000x64 S64x1 S400000x1 where
  lhsContracting := [1]
  rhsContracting := [0]
  lhsNonContracting := [0]
  rhsNonContracting := [1]
  lhsBatch := []
  rhsBatch := []
  wf := dot_S400000x64_S64x1_S400000x1_1_0_0_1_n_n_wf

class Facts : Prop extends Facts₀ where

variable [Facts]
-- ==== Proof.K.Region0.lean ====
-- Region 0: the row-blocked linear layer with relu; each grid point stores max(x·w + b, 0) of its 5000-row block.
import proofs.«400336_j15375982920184_3_alg».proof.Proof.Gen.Kernel.Launch
import proofs.«400336_j15375982920184_3_alg».proof.Proof.Gen.Kernel.Skeleton
import proofs.«400336_j15375982920184_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S5000x128 := Rect.unit (s := S5000x128) ![0, 0] S5000x128.size inb_S5000x128_S5000x128_0_0
abbrev rw0 : Rect S128x64 := Rect.unit (s := S128x64) ![0, 0] S128x64.size inb_S128x64_S128x64_0_0
abbrev rb0 : Rect S1x64 := Rect.unit (s := S1x64) ![0, 0] S1x64.size inb_S1x64_S1x64_0_0
abbrev ro0 : Rect S5000x64 := Rect.unit (s := S5000x64) ![0, 0] S5000x64.size inb_S5000x64_S5000x64_0_0

def out0_3 (x0 : Vec F S5000x128 .f32) (x1 : Vec F S128x64 .f32) (x2 : Vec F S1x64 .f32) : Vec F S5000x64 .f32 :=
  View.canon [⟨ro0, k0_pay1 (View.ld x0 rx0) (View.ld x1 rw0) (View.ld x2 rb0)⟩]

theorem cover0_3 (p0 : Vec F S5000x64 .f32) (y : S5000x64.Idx) :
    ∃ pc ∈ ([⟨ro0, p0⟩] : List (View.Piece (Elt F) S5000x64 .f32)), y ∈ pc.1.set :=
  View.cover_of_tiled [⟨ro0, p0⟩] S5000x64.size (by rfl) y

set_option maxHeartbeats 1000000 in
theorem sound_kernel0 (c : Dev nD) (E : Set ℕ) (i : grid0.Coords)
    (arg1 : Memref sig .tc .vmem S5000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
-- Region 1: the same linear layer with relu on the item features; its body is region 0's, so region 0's triple serves.
import proofs.«400336_j15375982920184_3_alg».proof.Proof.K.Region0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rx1 : Rect S5000x128 := Rect.unit (s := S5000x128) ![0, 0] S5000x128.size inb_S5000x128_S5000x128_0_0
abbrev rw1 : Rect S128x64 := Rect.unit (s := S128x64) ![0, 0] S128x64.size inb_S128x64_S128x64_0_0
abbrev rb1 : Rect S1x64 := Rect.unit (s := S1x64) ![0, 0] S1x64.size inb_S1x64_S1x64_0_0
abbrev ro1 : Rect S5000x64 := Rect.unit (s := S5000x64) ![0, 0] S5000x64.size inb_S5000x64_S5000x64_0_0

def out1_3 (x0 : Vec F S5000x128 .f32) (x1 : Vec F S128x64 .f32) (x2 : Vec F S1x64 .f32) : Vec F S5000x64 .f32 :=
  View.canon [⟨ro1, k1_pay1 (View.ld x0 rx1) (View.ld x1 rw1) (View.ld x2 rb1)⟩]

theorem sound_kernel1 (c : Dev nD) (E : Set ℕ) (i : grid1.Coords)
    (arg1 : Memref sig .tc .vmem S5000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_relu_kernel i arg1 harg1 arg2 harg2 arg3 harg3 arg4 harg4) K :=
  sound_kernel0 c E i arg1 harg1 arg2 harg2 arg3 harg3 arg4 harg4 x0 x1 x2 K

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
-- Region 2: the decoder; each grid point stores four columns of outputs for its 5000 pairs.
import proofs.«400336_j15375982920184_3_alg».proof.Proof.Gen.Kernel.Launch
import proofs.«400336_j15375982920184_3_alg».proof.Proof.Gen.Kernel.Skeleton
import proofs.«400336_j15375982920184_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2a : Rect S5000x64 := Rect.unit (s := S5000x64) ![0, 0] S5000x64.size inb_S5000x64_S5000x64_0_0
abbrev r2w : Rect S64x64 := Rect.unit (s := S64x64) ![0, 0] S64x64.size inb_S64x64_S64x64_0_0
abbrev r2b : Rect S1x64 := Rect.unit (s := S1x64) ![0, 0] S1x64.size inb_S1x64_S1x64_0_0
abbrev r2v : Rect S64x1 := Rect.unit (s := S64x1) ![0, 0] S64x1.size inb_S64x1_S64x1_0_0
abbrev r2c0 : Rect S5000x4 := Rect.unit (s := S5000x4) ![0, 0] S5000x1.size inb_S5000x4_S5000x1_0_0
abbrev r2c1 : Rect S5000x4 := Rect.unit (s := S5000x4) ![0, 1] S5000x1.size inb_S5000x4_S5000x1_0_1
abbrev r2c2 : Rect S5000x4 := Rect.unit (s := S5000x4) ![0, 2] S5000x1.size inb_S5000x4_S5000x1_0_2
abbrev r2c3 : Rect S5000x4 := Rect.unit (s := S5000x4) ![0, 3] S5000x1.size inb_S5000x4_S5000x1_0_3

def out2_9 (x0 : Vec F S5000x64 .f32) (x1 : Vec F S5000x64 .f32) (x2 : Vec F S5000x64 .f32) (x3 : Vec F S5000x4 .f32) (x4 : Vec F S64x64 .f32) (x5 : Vec F S64x64 .f32) (x6 : Vec F S1x64 .f32) (x7 : Vec F S1x64 .f32) (x8 : Vec F S64x1 .f32) : Vec F S5000x4 .f32 :=
  View.canon [⟨r2c3, k2_pay1 (k2_pay2 (View.ld x5 r2w)) (k2_pay3 (View.ld x6 r2b)) (k2_pay4 (View.ld x7 r2b)) (View.ld x8 r2v) (k2_pay5 (View.ld x0 r2a) (View.ld x4 r2w)) (k2_pay7 (View.ld x2 r2a)) (k2_pay11 (View.ld x3 r2c3)) (constant S5000x64 .f32 0x00000000#32)⟩,
    ⟨r2c2, k2_pay10 (k2_pay2 (View.ld x5 r2w)) (k2_pay3 (View.ld x6 r2b)) (k2_pay4 (View.ld x7 r2b)) (View.ld x8 r2v) (k2_pay5 (View.ld x0 r2a) (View.ld x4 r2w)) (k2_pay6 (View.ld x1 r2a)) (View.ld x3 r2c2)⟩,
    ⟨r2c1, k2_pay9 (k2_pay2 (View.ld x5 r2w)) (k2_pay3 (View.ld x6 r2b)) (k2_pay4 (View.ld x7 r2b)) (View.ld x8 r2v) (k2_pay5 (View.ld x0 r2a) (View.ld x4 r2w)) (k2_pay7 (View.ld x2 r2a)) (View.ld x3 r2c1)⟩,
    ⟨r2c0, k2_pay8 (View.ld x0 r2a) (View.ld x4 r2w) (View.ld x5 r2w) (View.ld x6 r2b) (View.ld x7 r2b) (View.ld x8 r2v) (View.ld x1 r2a) (View.ld x3 r2c0)⟩]

theorem cover2_9 (p0 p1 p2 p3 : Vec F S5000x1 .f32) (y : S5000x4.Idx) :
    ∃ pc ∈ ([⟨r2c3, p0⟩, ⟨r2c2, p1⟩, ⟨r2c1, p2⟩, ⟨r2c0, p3⟩] : List (View.Piece (Elt F) S5000x4 .f32)), y ∈ pc.1.set :=
  View.cover_of_tiled [⟨r2c3, p0⟩, ⟨r2c2, p1⟩, ⟨r2c1, p2⟩, ⟨r2c0, p3⟩] S5000x1.size (by rfl) y

set_option maxHeartbeats 4000000 in
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x4 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x1 .f32) (harg9 : arg9.IsWhole) (arg10 : Memref sig .tc .vmem S5000x4 .f32) (harg10 : arg10.IsWhole)
    (x0 : Vec F S5000x64 .f32) (x1 : Vec F S5000x64 .f32) (x2 : Vec F S5000x64 .f32) (x3 : Vec F S5000x4 .f32) (x4 : Vec F S64x64 .f32) (x5 : Vec F S64x64 .f32) (x6 : Vec F S1x64 .f32) (x7 : Vec F S1x64 .f32) (x8 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out2_9 x0 x1 x2 x3 x4 x5 x6 x7 x8)) -∗ K ⟨⟩))
      ⊢ wp frame (wpE (defs₀ (F := F)) Variants.none c none) E (cc2__decode_kernel i arg1 harg1 arg2 harg2 arg3 harg3 arg4 harg4 arg5 harg5 arg6 harg6 arg7 harg7 arg8 harg8 arg9 harg9 arg10 harg10) K := by
  simp only [cc2__decode_kernel_eq_skeleton]; unfold cc2__decode_kernel_skel
  simp only [k2_part1_eq_skeleton, k2_part2_eq_skeleton]; unfold k2_part1_skel k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _ _ _ _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_9 (c : Dev nD) (t : Fin cfg2.N) :
    (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl
theorem before2_7 (c : Dev nD) (t : Fin cfg2.N) (d) : (dat2 V c).before 7 t d = iblk2 V c 7 t :=
  ((dat2 V c).before_in_eq_fetched 7 rfl (fun _ => rfl) (fun _ _ _ => rfl) (fun _ => rfl) t d).trans rfl
theorem before2_8 (c : Dev nD) (t : Fin cfg2.N) (d) : (dat2 V c).before 8 t d = iblk2 V c 8 t :=
  ((dat2 V c).before_in_eq_fetched 8 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

def bodyPost2 (c : Dev nD) (t : Fin cfg2.N) : sProp 𝕄 :=
  iprop((dat2 V c).Φ t.succ ∗ (dat2 V c).owesAt () t.succ
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (iblk2 V c 4 t)
    ∗ owns (c : Thread nD τ) (st2_5 t) fullShare (iblk2 V c 5 t)
    ∗ owns (c : Thread nD τ) (st2_6 t) fullShare (iblk2 V c 6 t)
    ∗ owns (c : Thread nD τ) (st2_7 t) fullShare (iblk2 V c 7 t)
    ∗ owns (c : Thread nD τ) (st2_8 t) fullShare (iblk2 V c 8 t)
    ∗ owns (c : Thread nD τ) (st2_9 t) fullShare ((dat2 V c).after 9 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
-- The run of @main as twelve steps, nine host stretches and three kernel regions; no step writes an argument.
import proofs.«400336_j15375982920184_3_alg».proof.Proof.K.Region0
import proofs.«400336_j15375982920184_3_alg».proof.Proof.K.Region1
import proofs.«400336_j15375982920184_3_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev argList : List (Ref sig .tc) :=
  [main_arg0, main_arg1, main_arg2, main_arg3, main_arg4, main_arg5, main_arg6, main_arg7, main_arg8, main_arg9, main_arg10,
   main_arg11, main_arg12, main_arg13, main_arg14, main_arg15, main_arg16]

-- The nine host stretches of @main, in order,
noncomputable def hops : ℕ → List (HloOp τ sig (Elt F))
  | 0 => main_part0_ops0
  | 1 => main_part0_ops1
  | 2 => main_part0_ops2
  | 3 => main_part0_ops3
  | 4 => main_part0_ops4
  | 5 => main_part0_ops5
  | 6 => main_part0_ops6
  | 7 => main_part1_ops0
  | 8 => main_part1_ops1
  | _ => []
-- and the buffers each writes.
noncomputable def hW : ℕ → List (Ref sig .tc)
  | 0 => [main_v0]
  | 1 => [main_v2]
  | 2 => [main_cst, main_v4, main_cst_0, main_v5, main_v6, main_v7, main_cst_1, main_v8, main_v9, main_v10, main_cst_2]
  | 3 => [main_call0_v0, main_call0_v1, main_v11]
  | 4 => [main_v12, main_v13, main_cst_3]
  | 5 => [main_call1_v0, main_call1_v1, main_v14]
  | 6 => [main_v15, main_v16, main_v17, main_v18, main_v19, main_c, main_v20, main_v21, main_c_4, main_v22, main_v23, main_v24, main_v25, main_v26, main_cst_5, main_v27, main_v28, main_v29, main_v30, main_v31, main_cst_6, main_v32, main_v33, main_v34, main_v35, main_v36, main_c_7, main_v37, main_v38, main_c_8, main_v39, main_v40, main_v41, main_v42, main_v43, main_cst_9, main_v44, main_v45, main_v46, main_v47]
  | 7 => [main_v48, main_cst_10, main_v49, main_v50, main_v51, main_v52, main_v53, main_v54, main_c_11, main_v55, main_v56, main_c_12, main_v57, main_v58, main_v59, main_v60, main_v61, main_c_13, main_v62, main_v63, main_c_14, main_v64, main_v65, main_v66, main_v67, main_v68, main_c_15, main_v69, main_v70, main_c_16, main_v71, main_v72, main_v73, main_v74, main_v75, main_v76, main_v77, main_v78, main_v79, main_v80, main_v81, main_v82, main_v83, main_v84, main_v85, main_v86, main_v87, main_v88]
  | 8 => [main_v90, main_v91, main_v92, main_v93, main_v94, main_v95, main_v96, main_v97, main_v98, main_v99]
  | _ => []
theorem hfresh : ∀ i, (hops (F := F) i).Forall fun op => op.fresh = ∅
  | 0 | 1 | 2 | 3 | 4 | 5 | 6 | 7 | 8 => by simp only [hops, List.Forall]; repeat' constructor
  | _ + 9 => trivial
theorem hwrites : ∀ i, (hops (F := F) i).Forall fun op => op.writes ⊆ ((hW i).map (Proc.devRef (τ := τ) .tc)).toFinset
  | 0 | 1 | 2 | 3 | 4 | 5 | 6 | 7 | 8 => by
    simp only [hops, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    repeat' apply And.intro
    all_goals exact List.mem_map_of_mem (by decide)
  | _ + 9 => trivial
-- A stretch leaves a buffer it does not write as it was; none writes an argument.
theorem hskip (i : ℕ) (V : Valuation τ sig (Elt F)) (b : Ref sig .tc) (hb : b ∉ hW i) :
    StableHlo.after (hops i) V b = V b :=
  StableHlo.after_of_writes_sub (hops i) V (hwrites i) hb
theorem hkeep (i : ℕ) (V : Valuation τ sig (Elt F)) (b : Ref sig .tc) (hb : b ∈ argList) (hi : i < 9 := by decide) :
    StableHlo.after (hops i) V b = V b :=
  hskip i V b ((by decide : ∀ i < 9, ∀ b ∈ argList, b ∉ hW i) i hi b hb)

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

abbrev W3 : Dev nD → Valuation τ sig (Elt F) := fun c => StableHlo.after main_part0_ops1 (W2 m ρ c)
abbrev V3 : (c : Dev nD) → (b : Ref sig .tc) → Buf (Elt F) ((c : Thread nD τ).loc b) := fun c b => W3 m ρ c b
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b

abbrev W5 : Dev nD → Valuation τ sig (Elt F) := fun c => StableHlo.after main_part0_ops2 (W4 m ρ c)
abbrev W6 : Dev nD → Valuation τ sig (Elt F) := fun c => StableHlo.after main_part0_ops3 (W5 m ρ c)
abbrev W7 : Dev nD → Valuation τ sig (Elt F) := fun c => StableHlo.after main_part0_ops4 (W6 m ρ c)
abbrev W8 : Dev nD → Valuation τ sig (Elt F) := fun c => StableHlo.after main_part0_ops5 (W7 m ρ c)
abbrev W9 : Dev nD → Valuation τ sig (Elt F) := fun c => StableHlo.after main_part0_ops6 (W8 m ρ c)
abbrev W10 : Dev nD → Valuation τ sig (Elt F) := fun c => StableHlo.after main_part1_ops0 (W9 m ρ c)
abbrev V10 : (c : Dev nD) → (b : Ref sig .tc) → Buf (Elt F) ((c : Thread nD τ).loc b) := fun c b => W10 m ρ c b
noncomputable def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
abbrev V11 : (c : Dev nD) → (b : Ref sig .tc) → Buf (Elt F) ((c : Thread nD τ).loc b) := fun c b => W11 m ρ c b

abbrev W12 : Dev nD → Valuation τ sig (Elt F) := fun c => StableHlo.after main_part1_ops1 (W11 m ρ c)

theorem W2_keep (c : Dev nD) (b : Ref sig .tc) (hb : b ≠ main_v1) :
    W2 m ρ c (Proc.devRef .tc b) = W1 m ρ c (Proc.devRef .tc b) := by
  by_cases h : ∃ w, Pipeline.arrRef spec0 w = b
  · obtain ⟨w, rfl⟩ := h
    match w, hb with
    | ⟨0, _⟩, _ => exact (W2_arr m ρ c 0).trans (((dat0 (V1 m ρ) c).arrAt_in 0 rfl _).trans (A_eq0 (V1 m ρ) c 0))
    | ⟨1, _⟩, _ => exact (W2_arr m ρ c 1).trans (((dat0 (V1 m ρ) c).arrAt_in 1 rfl _).trans (A_eq0 (V1 m ρ) c 1))
    | ⟨2, _⟩, _ => exact (W2_arr m ρ c 2).trans (((dat0 (V1 m ρ) c).arrAt_in 2 rfl _).trans (A_eq0 (V1 m ρ) c 2))
    | ⟨3, _⟩, hb => exact absurd rfl hb
  · exact W2_of_ne m ρ c b (fun w e => h ⟨w, e⟩)

theorem W4_keep (c : Dev nD) (b : Ref sig .tc) (hb : b ≠ main_v3) :
    W4 m ρ c (Proc.devRef .tc b) = W3 m ρ c (Proc.devRef .tc b) := by
  by_cases h : ∃ w, Pipeline.arrRef spec1 w = b
  · obtain ⟨w, rfl⟩ := h
    match w, hb with
    | ⟨0, _⟩, _ => exact (W4_arr m ρ c 0).trans (((dat1 (V3 m ρ) c).arrAt_in 0 rfl _).trans (A_eq1 (V3 m ρ) c 0))
    | ⟨1, _⟩, _ => exact (W4_arr m ρ c 1).trans (((dat1 (V3 m ρ) c).arrAt_in 1 rfl _).trans (A_eq1 (V3 m ρ) c 1))
    | ⟨2, _⟩, _ => exact (W4_arr m ρ c 2).trans (((dat1 (V3 m ρ) c).arrAt_in 2 rfl _).trans (A_eq1 (V3 m ρ) c 2))
    | ⟨3, _⟩, hb => exact absurd rfl hb
  · exact W4_of_ne m ρ c b (fun w e => h ⟨w, e⟩)

theorem W11_keep (c : Dev nD) (b : Ref sig .tc) (hb : b ≠ main_v89) :
    W11 m ρ c (Proc.devRef .tc b) = W10 m ρ c (Proc.devRef .tc b) := by
  by_cases h : ∃ w, Pipeline.arrRef spec2 w = b
  · obtain ⟨w, rfl⟩ := h
    have hw : (cfg2.win w).isOut = false :=
      (by decide : ∀ w : Fin 10, Pipeline.arrRef spec2 w ≠ main_v89 → (cfg2.win w).isOut = false) w hb
    exact (W11_arr m ρ c w).trans (((dat2 (V10 m ρ) c).arrAt_in w hw _).trans (A_eq2 (V10 m ρ) c w))
  · exact W11_of_ne m ρ c b (fun w e => h ⟨w, e⟩)

theorem W12_arg (c : Dev nD) (b : Ref sig .tc) (hb : b ∈ argList) :
    W12 m ρ c (Proc.devRef .tc b) = m ((c : Thread nD τ).loc b) :=
  calc W12 m ρ c (Proc.devRef .tc b)
    _ = W11 m ρ c (Proc.devRef .tc b) := hkeep 8 _ b hb
    _ = W10 m ρ c (Proc.devRef .tc b) := W11_keep m ρ c b ((by decide : ∀ b ∈ argList, b ≠ main_v89) b hb)
    _ = W9 m ρ c (Proc.devRef .tc b) := hkeep 7 _ b hb
    _ = W8 m ρ c (Proc.devRef .tc b) := hkeep 6 _ b hb
    _ = W7 m ρ c (Proc.devRef .tc b) := hkeep 5 _ b hb
    _ = W6 m ρ c (Proc.devRef .tc b) := hkeep 4 _ b hb
    _ = W5 m ρ c (Proc.devRef .tc b) := hkeep 3 _ b hb
    _ = W4 m ρ c (Proc.devRef .tc b) := hkeep 2 _ b hb
    _ = W3 m ρ c (Proc.devRef .tc b) := W4_keep m ρ c b ((by decide : ∀ b ∈ argList, b ≠ main_v3) b hb)
    _ = W2 m ρ c (Proc.devRef .tc b) := hkeep 1 _ b hb
    _ = W1 m ρ c (Proc.devRef .tc b) := W2_keep m ρ c b ((by decide : ∀ b ∈ argList, b ≠ main_v1) b hb)
    _ = W0 m ρ c (Proc.devRef .tc b) := hkeep 0 _ b hb
    _ = m ((c : Thread nD τ).loc b) := rfl

abbrev adm : (p : Fin 3) → (pcfgs (F := F) p).Adm := fun p => (cfgs p).toPCfg_adm
noncomputable def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V10 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W12 m ρ c) ∗ ∃ r, prngReg c r)

-- A valuation read at a core's own references.
abbrev atTc (W : Dev nD → Valuation τ sig (Elt F)) : (c : Dev nD) → (b : Ref sig .tc) → Buf (Elt F) ((c : Thread nD τ).loc b) :=
  fun c b => W c b

set_option backward.isDefEq.respectTransparency.types false in
-- A kernel region as one step of the run, entered with the buffers at Win and left with them at Wout.
noncomputable def regOf (p : Fin 3) (lf : Pipeline.LaunchFacts (nD := nD) (τ := τ) cfgs p) (Win Wout : Dev nD → Valuation τ sig (Elt F))
    (hbody : ∀ c, Pipeline.BodyObligationLoose (pdats m ρ p c) (defs₀ (F := F)) 𝒱₀ () Set.univ)
    (hq : ∀ c w, (pdats m ρ p c).q w = fullShare) (howed : ∀ c t, (pdats m ρ p c).owed t = 0)
    (hrec : ∀ c x, x ∈ (pdats m ρ p c).recorded 0)
    (hΦ : ∀ c t, (pdats m ρ p c).Φ t = Pipeline.ΦA (cfgs p).spec c)
    (hA : ∀ c w, (pdats m ρ p c).A w = atTc Win c (Pipeline.arrRef (cfgs p).spec w))
    (hF : ∀ c w, (pdats m ρ p c).arrAt w (cfgs p).N = atTc Wout c (Pipeline.arrRef (cfgs p).spec w))
    (hrest : ∀ c b, b ∉ Finset.univ.image (Pipeline.arrRef (cfgs p).spec) → atTc Wout c b = atTc Win c b) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Win c)
  hentry c := by
    rw [Pipeline.ownSems0_none]
    have hsplit := Pipeline.arrays_of_unscopedBufs (p := p) (pcfgs (F := F)) adm (pdats m ρ) lf.win lf.arr_whole c
      ((pdats m ρ p c).share_full (hq c)) (atTc Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (hrec c x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (atTc Win c) (atTc Wout c) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
noncomputable def reg0 : Pipeline.RegionSeg (pcfgs (F := F)) adm (pdats m ρ) () defs₀ 𝒱₀ L lv 0 :=
  regOf m ρ 0 launch0 (W1 m ρ) (W2 m ρ) (fun c => (body_obligation0 (V1 m ρ) c).loose) (fun _ _ => rfl) (fun _ _ => rfl)
    (fun _ _ => trivial) (fun _ _ => rfl) (fun _ _ => rfl) (fun c w => (W2_arr m ρ c w).symm)
    fun c b hb => W2_of_ne m ρ c b fun w e => hb (Finset.mem_image.mpr ⟨w, Finset.mem_univ _, e⟩)
set_option backward.isDefEq.respectTransparency.types false in
noncomputable def reg1 : Pipeline.RegionSeg (pcfgs (F := F)) adm (pdats m ρ) () defs₀ 𝒱₀ L lv 1 :=
  regOf m ρ 1 launch1 (W3 m ρ) (W4 m ρ) (fun c => (body_obligation1 (V3 m ρ) c).loose) (fun _ _ => rfl) (fun _ _ => rfl)
    (fun _ _ => trivial) (fun _ _ => rfl) (fun _ _ => rfl) (fun c w => (W4_arr m ρ c w).symm)
    fun c b hb => W4_of_ne m ρ c b fun w e => hb (Finset.mem_image.mpr ⟨w, Finset.mem_univ _, e⟩)
set_option backward.isDefEq.respectTransparency.types false in
noncomputable def reg2 : Pipeline.RegionSeg (pcfgs (F := F)) adm (pdats m ρ) () defs₀ 𝒱₀ L lv 2 :=
  regOf m ρ 2 launch2 (W10 m ρ) (W11 m ρ) (fun c => (body_obligation2 (V10 m ρ) c).loose) (fun _ _ => rfl) (fun _ _ => rfl)
    (fun _ _ => trivial) (fun _ _ => rfl) (fun _ _ => rfl) (fun c w => (W11_arr m ρ c w).symm)
    fun c b hb => W11_of_ne m ρ c b fun w e => hb (Finset.mem_image.mpr ⟨w, Finset.mem_univ _, e⟩)

abbrev segs : List (Pipeline.Seg (pcfgs (F := F)) adm (pdats m ρ) () defs₀ 𝒱₀ L lv) :=
  [ .host (hseg main_part0_ops0 main_part0_ops0_sub (hfresh 0) (W0 m ρ)),
    .region (reg0 m ρ),
    .host (hseg main_part0_ops1 main_part0_ops1_sub (hfresh 1) (W2 m ρ)),
    .region (reg1 m ρ),
    .host (hseg main_part0_ops2 main_part0_ops2_sub (hfresh 2) (W4 m ρ)),
    .host (hseg main_part0_ops3 main_part0_ops3_sub (hfresh 3) (W5 m ρ)),
    .host (hseg main_part0_ops4 main_part0_ops4_sub (hfresh 4) (W6 m ρ)),
    .host (hseg main_part0_ops5 main_part0_ops5_sub (hfresh 5) (W7 m ρ)),
    .host (hseg main_part0_ops6 main_part0_ops6_sub (hfresh 6) (W8 m ρ)),
    .host (hseg main_part1_ops0 main_part1_ops0_sub (hfresh 7) (W9 m ρ)),
    .region (reg2 m ρ),
    .host (hseg main_part1_ops1 main_part1_ops1_sub (hfresh 8) (W11 m ρ)) ]
theorem main_run (c : Dev nD) : main (F := F) c = Pipeline.Seg.run (segs m ρ) := (main_chain_windows c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W12 m ρ c (Proc.devRef .tc b)) :=
  (θ_run defs _ _).mono (fun _ h c b hb => h c _ (mem_uc b hb)) (run_all m ρ)

theorem frame_args : θ_run defs (onTc (τ := τ) (main (F := F))) ⟨m, fun _ => 0, ρ⟩ (fun r => ∀ c : Dev nD,
      ∀ b ∈ argList, r.2.mem ((c.tc : Thread nD τ).loc b) = m ((c.tc : Thread nD τ).loc b)) :=
  (θ_run defs _ _).mono (fun _ h c b hb =>
      (h c b ((by decide : ∀ b ∈ argList, ¬ (Proc.devRef .tc b : DevRef τ sig).isScoped) b hb)).trans (W12_arg m ρ c b hb))
    (run_at m ρ)

end Cert.Kernel.Hand

end
-- ==== Proof.KI.Region0.lean ====
-- Region 0: the row-blocked linear layer with relu; each grid point stores max(x·w + b, 0) of its 5000-row block.
import proofs.«400336_j15375982920184_3_alg».proof.Proof.Gen.KernelIdeal.Launch
import proofs.«400336_j15375982920184_3_alg».proof.Proof.Gen.KernelIdeal.Skeleton
import proofs.«400336_j15375982920184_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S5000x128 := Rect.unit (s := S5000x128) ![0, 0] S5000x128.size inb_S5000x128_S5000x128_0_0
abbrev rw0 : Rect S128x64 := Rect.unit (s := S128x64) ![0, 0] S128x64.size inb_S128x64_S128x64_0_0
abbrev rb0 : Rect S1x64 := Rect.unit (s := S1x64) ![0, 0] S1x64.size inb_S1x64_S1x64_0_0
abbrev ro0 : Rect S5000x64 := Rect.unit (s := S5000x64) ![0, 0] S5000x64.size inb_S5000x64_S5000x64_0_0

def out0_3 (x0 : Vec F S5000x128 .f32) (x1 : Vec F S128x64 .f32) (x2 : Vec F S1x64 .f32) : Vec F S5000x64 .f32 :=
  View.canon [⟨ro0, k0_pay1 (View.ld x0 rx0) (View.ld x1 rw0) (View.ld x2 rb0)⟩]

theorem cover0_3 (p0 : Vec F S5000x64 .f32) (y : S5000x64.Idx) :
    ∃ pc ∈ ([⟨ro0, p0⟩] : List (View.Piece (Elt F) S5000x64 .f32)), y ∈ pc.1.set :=
  View.cover_of_tiled [⟨ro0, p0⟩] S5000x64.size (by rfl) y

set_option maxHeartbeats 1000000 in
theorem sound_kernel0 (c : Dev nD) (E : Set ℕ) (i : grid0.Coords)
    (arg1 : Memref sig .tc .vmem S5000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
-- Region 1: the same linear layer with relu on the item features; its body is region 0's, so region 0's triple serves.
import proofs.«400336_j15375982920184_3_alg».proof.Proof.KI.Region0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rx1 : Rect S5000x128 := Rect.unit (s := S5000x128) ![0, 0] S5000x128.size inb_S5000x128_S5000x128_0_0
abbrev rw1 : Rect S128x64 := Rect.unit (s := S128x64) ![0, 0] S128x64.size inb_S128x64_S128x64_0_0
abbrev rb1 : Rect S1x64 := Rect.unit (s := S1x64) ![0, 0] S1x64.size inb_S1x64_S1x64_0_0
abbrev ro1 : Rect S5000x64 := Rect.unit (s := S5000x64) ![0, 0] S5000x64.size inb_S5000x64_S5000x64_0_0

def out1_3 (x0 : Vec F S5000x128 .f32) (x1 : Vec F S128x64 .f32) (x2 : Vec F S1x64 .f32) : Vec F S5000x64 .f32 :=
  View.canon [⟨ro1, k1_pay1 (View.ld x0 rx1) (View.ld x1 rw1) (View.ld x2 rb1)⟩]

theorem sound_kernel1 (c : Dev nD) (E : Set ℕ) (i : grid1.Coords)
    (arg1 : Memref sig .tc .vmem S5000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_relu_kernel i arg1 harg1 arg2 harg2 arg3 harg3 arg4 harg4) K :=
  sound_kernel0 c E i arg1 harg1 arg2 harg2 arg3 harg3 arg4 harg4 x0 x1 x2 K

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
-- Region 2: the decoder; each grid point stores four columns of outputs for its 5000 pairs.
import proofs.«400336_j15375982920184_3_alg».proof.Proof.Gen.KernelIdeal.Launch
import proofs.«400336_j15375982920184_3_alg».proof.Proof.Gen.KernelIdeal.Skeleton
import proofs.«400336_j15375982920184_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2a : Rect S5000x64 := Rect.unit (s := S5000x64) ![0, 0] S5000x64.size inb_S5000x64_S5000x64_0_0
abbrev r2w : Rect S64x64 := Rect.unit (s := S64x64) ![0, 0] S64x64.size inb_S64x64_S64x64_0_0
abbrev r2b : Rect S1x64 := Rect.unit (s := S1x64) ![0, 0] S1x64.size inb_S1x64_S1x64_0_0
abbrev r2v : Rect S64x1 := Rect.unit (s := S64x1) ![0, 0] S64x1.size inb_S64x1_S64x1_0_0
abbrev r2c0 : Rect S5000x4 := Rect.unit (s := S5000x4) ![0, 0] S5000x1.size inb_S5000x4_S5000x1_0_0
abbrev r2c1 : Rect S5000x4 := Rect.unit (s := S5000x4) ![0, 1] S5000x1.size inb_S5000x4_S5000x1_0_1
abbrev r2c2 : Rect S5000x4 := Rect.unit (s := S5000x4) ![0, 2] S5000x1.size inb_S5000x4_S5000x1_0_2
abbrev r2c3 : Rect S5000x4 := Rect.unit (s := S5000x4) ![0, 3] S5000x1.size inb_S5000x4_S5000x1_0_3

def out2_9 (x0 : Vec F S5000x64 .f32) (x1 : Vec F S5000x64 .f32) (x2 : Vec F S5000x64 .f32) (x3 : Vec F S5000x4 .f32) (x4 : Vec F S64x64 .f32) (x5 : Vec F S64x64 .f32) (x6 : Vec F S1x64 .f32) (x7 : Vec F S1x64 .f32) (x8 : Vec F S64x1 .f32) : Vec F S5000x4 .f32 :=
  View.canon [⟨r2c3, k2_pay1 (k2_pay2 (View.ld x5 r2w)) (k2_pay3 (View.ld x6 r2b)) (k2_pay4 (View.ld x7 r2b)) (View.ld x8 r2v) (k2_pay5 (View.ld x0 r2a) (View.ld x4 r2w)) (k2_pay7 (View.ld x2 r2a)) (k2_pay11 (View.ld x3 r2c3)) (constant S5000x64 .f32 0x00000000#32)⟩,
    ⟨r2c2, k2_pay10 (k2_pay2 (View.ld x5 r2w)) (k2_pay3 (View.ld x6 r2b)) (k2_pay4 (View.ld x7 r2b)) (View.ld x8 r2v) (k2_pay5 (View.ld x0 r2a) (View.ld x4 r2w)) (k2_pay6 (View.ld x1 r2a)) (View.ld x3 r2c2)⟩,
    ⟨r2c1, k2_pay9 (k2_pay2 (View.ld x5 r2w)) (k2_pay3 (View.ld x6 r2b)) (k2_pay4 (View.ld x7 r2b)) (View.ld x8 r2v) (k2_pay5 (View.ld x0 r2a) (View.ld x4 r2w)) (k2_pay7 (View.ld x2 r2a)) (View.ld x3 r2c1)⟩,
    ⟨r2c0, k2_pay8 (View.ld x0 r2a) (View.ld x4 r2w) (View.ld x5 r2w) (View.ld x6 r2b) (View.ld x7 r2b) (View.ld x8 r2v) (View.ld x1 r2a) (View.ld x3 r2c0)⟩]

theorem cover2_9 (p0 p1 p2 p3 : Vec F S5000x1 .f32) (y : S5000x4.Idx) :
    ∃ pc ∈ ([⟨r2c3, p0⟩, ⟨r2c2, p1⟩, ⟨r2c1, p2⟩, ⟨r2c0, p3⟩] : List (View.Piece (Elt F) S5000x4 .f32)), y ∈ pc.1.set :=
  View.cover_of_tiled [⟨r2c3, p0⟩, ⟨r2c2, p1⟩, ⟨r2c1, p2⟩, ⟨r2c0, p3⟩] S5000x1.size (by rfl) y

set_option maxHeartbeats 4000000 in
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x4 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x1 .f32) (harg9 : arg9.IsWhole) (arg10 : Memref sig .tc .vmem S5000x4 .f32) (harg10 : arg10.IsWhole)
    (x0 : Vec F S5000x64 .f32) (x1 : Vec F S5000x64 .f32) (x2 : Vec F S5000x64 .f32) (x3 : Vec F S5000x4 .f32) (x4 : Vec F S64x64 .f32) (x5 : Vec F S64x64 .f32) (x6 : Vec F S1x64 .f32) (x7 : Vec F S1x64 .f32) (x8 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out2_9 x0 x1 x2 x3 x4 x5 x6 x7 x8)) -∗ K ⟨⟩))
      ⊢ wp frame (wpE (defs₀ (F := F)) Variants.none c none) E (cc2__decode_kernel i arg1 harg1 arg2 harg2 arg3 harg3 arg4 harg4 arg5 harg5 arg6 harg6 arg7 harg7 arg8 harg8 arg9 harg9 arg10 harg10) K := by
  simp only [cc2__decode_kernel_eq_skeleton]; unfold cc2__decode_kernel_skel
  simp only [k2_part1_eq_skeleton, k2_part2_eq_skeleton]; unfold k2_part1_skel k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _ _ _ _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_9 (c : Dev nD) (t : Fin cfg2.N) :
    (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl
theorem before2_7 (c : Dev nD) (t : Fin cfg2.N) (d) : (dat2 V c).before 7 t d = iblk2 V c 7 t :=
  ((dat2 V c).before_in_eq_fetched 7 rfl (fun _ => rfl) (fun _ _ _ => rfl) (fun _ => rfl) t d).trans rfl
theorem before2_8 (c : Dev nD) (t : Fin cfg2.N) (d) : (dat2 V c).before 8 t d = iblk2 V c 8 t :=
  ((dat2 V c).before_in_eq_fetched 8 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

def bodyPost2 (c : Dev nD) (t : Fin cfg2.N) : sProp 𝕄 :=
  iprop((dat2 V c).Φ t.succ ∗ (dat2 V c).owesAt () t.succ
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (iblk2 V c 4 t)
    ∗ owns (c : Thread nD τ) (st2_5 t) fullShare (iblk2 V c 5 t)
    ∗ owns (c : Thread nD τ) (st2_6 t) fullShare (iblk2 V c 6 t)
    ∗ owns (c : Thread nD τ) (st2_7 t) fullShare (iblk2 V c 7 t)
    ∗ owns (c : Thread nD τ) (st2_8 t) fullShare (iblk2 V c 8 t)
    ∗ owns (c : Thread nD τ) (st2_9 t) fullShare ((dat2 V c).after 9 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
-- The run of @main as twelve steps, nine host stretches and three kernel regions; no step writes an argument.
import proofs.«400336_j15375982920184_3_alg».proof.Proof.KI.Region0
import proofs.«400336_j15375982920184_3_alg».proof.Proof.KI.Region1
import proofs.«400336_j15375982920184_3_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev argList : List (Ref sig .tc) :=
  [main_arg0, main_arg1, main_arg2, main_arg3, main_arg4, main_arg5, main_arg6, main_arg7, main_arg8, main_arg9, main_arg10,
   main_arg11, main_arg12, main_arg13, main_arg14, main_arg15, main_arg16]

-- The nine host stretches of @main, in order,
noncomputable def hops : ℕ → List (HloOp τ sig (Elt F))
  | 0 => main_part0_ops0
  | 1 => main_part0_ops1
  | 2 => main_part0_ops2
  | 3 => main_part0_ops3
  | 4 => main_part0_ops4
  | 5 => main_part0_ops5
  | 6 => main_part0_ops6
  | 7 => main_part1_ops0
  | 8 => main_part1_ops1
  | _ => []
-- and the buffers each writes.
noncomputable def hW : ℕ → List (Ref sig .tc)
  | 0 => [main_v0]
  | 1 => [main_v2]
  | 2 => [main_cst, main_v4, main_cst_0, main_v5, main_v6, main_v7, main_cst_1, main_v8, main_v9, main_v10, main_cst_2]
  | 3 => [main_call0_v0, main_call0_v1, main_v11]
  | 4 => [main_v12, main_v13, main_cst_3]
  | 5 => [main_call1_v0, main_call1_v1, main_v14]
  | 6 => [main_v15, main_v16, main_v17, main_v18, main_v19, main_c, main_v20, main_v21, main_c_4, main_v22, main_v23, main_v24, main_v25, main_v26, main_cst_5, main_v27, main_v28, main_v29, main_v30, main_v31, main_cst_6, main_v32, main_v33, main_v34, main_v35, main_v36, main_c_7, main_v37, main_v38, main_c_8, main_v39, main_v40, main_v41, main_v42, main_v43, main_cst_9, main_v44, main_v45, main_v46, main_v47]
  | 7 => [main_v48, main_cst_10, main_v49, main_v50, main_v51, main_v52, main_v53, main_v54, main_c_11, main_v55, main_v56, main_c_12, main_v57, main_v58, main_v59, main_v60, main_v61, main_c_13, main_v62, main_v63, main_c_14, main_v64, main_v65, main_v66, main_v67, main_v68, main_c_15, main_v69, main_v70, main_c_16, main_v71, main_v72, main_v73, main_v74, main_v75, main_v76, main_v77, main_v78, main_v79, main_v80, main_v81, main_v82, main_v83, main_v84, main_v85, main_v86, main_v87, main_v88]
  | 8 => [main_v90, main_v91, main_v92, main_v93, main_v94, main_v95, main_v96, main_v97, main_v98, main_v99]
  | _ => []
theorem hfresh : ∀ i, (hops (F := F) i).Forall fun op => op.fresh = ∅
  | 0 | 1 | 2 | 3 | 4 | 5 | 6 | 7 | 8 => by simp only [hops, List.Forall]; repeat' constructor
  | _ + 9 => trivial
theorem hwrites : ∀ i, (hops (F := F) i).Forall fun op => op.writes ⊆ ((hW i).map (Proc.devRef (τ := τ) .tc)).toFinset
  | 0 | 1 | 2 | 3 | 4 | 5 | 6 | 7 | 8 => by
    simp only [hops, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    repeat' apply And.intro
    all_goals exact List.mem_map_of_mem (by decide)
  | _ + 9 => trivial
-- A stretch leaves a buffer it does not write as it was; none writes an argument.
theorem hskip (i : ℕ) (V : Valuation τ sig (Elt F)) (b : Ref sig .tc) (hb : b ∉ hW i) :
    StableHlo.after (hops i) V b = V b :=
  StableHlo.after_of_writes_sub (hops i) V (hwrites i) hb
theorem hkeep (i : ℕ) (V : Valuation τ sig (Elt F)) (b : Ref sig .tc) (hb : b ∈ argList) (hi : i < 9 := by decide) :
    StableHlo.after (hops i) V b = V b :=
  hskip i V b ((by decide : ∀ i < 9, ∀ b ∈ argList, b ∉ hW i) i hi b hb)

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

abbrev W3 : Dev nD → Valuation τ sig (Elt F) := fun c => StableHlo.after main_part0_ops1 (W2 m ρ c)
abbrev V3 : (c : Dev nD) → (b : Ref sig .tc) → Buf (Elt F) ((c : Thread nD τ).loc b) := fun c b => W3 m ρ c b
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b

abbrev W5 : Dev nD → Valuation τ sig (Elt F) := fun c => StableHlo.after main_part0_ops2 (W4 m ρ c)
abbrev W6 : Dev nD → Valuation τ sig (Elt F) := fun c => StableHlo.after main_part0_ops3 (W5 m ρ c)
abbrev W7 : Dev nD → Valuation τ sig (Elt F) := fun c => StableHlo.after main_part0_ops4 (W6 m ρ c)
abbrev W8 : Dev nD → Valuation τ sig (Elt F) := fun c => StableHlo.after main_part0_ops5 (W7 m ρ c)
abbrev W9 : Dev nD → Valuation τ sig (Elt F) := fun c => StableHlo.after main_part0_ops6 (W8 m ρ c)
abbrev W10 : Dev nD → Valuation τ sig (Elt F) := fun c => StableHlo.after main_part1_ops0 (W9 m ρ c)
abbrev V10 : (c : Dev nD) → (b : Ref sig .tc) → Buf (Elt F) ((c : Thread nD τ).loc b) := fun c b => W10 m ρ c b
noncomputable def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
abbrev V11 : (c : Dev nD) → (b : Ref sig .tc) → Buf (Elt F) ((c : Thread nD τ).loc b) := fun c b => W11 m ρ c b

abbrev W12 : Dev nD → Valuation τ sig (Elt F) := fun c => StableHlo.after main_part1_ops1 (W11 m ρ c)

theorem W2_keep (c : Dev nD) (b : Ref sig .tc) (hb : b ≠ main_v1) :
    W2 m ρ c (Proc.devRef .tc b) = W1 m ρ c (Proc.devRef .tc b) := by
  by_cases h : ∃ w, Pipeline.arrRef spec0 w = b
  · obtain ⟨w, rfl⟩ := h
    match w, hb with
    | ⟨0, _⟩, _ => exact (W2_arr m ρ c 0).trans (((dat0 (V1 m ρ) c).arrAt_in 0 rfl _).trans (A_eq0 (V1 m ρ) c 0))
    | ⟨1, _⟩, _ => exact (W2_arr m ρ c 1).trans (((dat0 (V1 m ρ) c).arrAt_in 1 rfl _).trans (A_eq0 (V1 m ρ) c 1))
    | ⟨2, _⟩, _ => exact (W2_arr m ρ c 2).trans (((dat0 (V1 m ρ) c).arrAt_in 2 rfl _).trans (A_eq0 (V1 m ρ) c 2))
    | ⟨3, _⟩, hb => exact absurd rfl hb
  · exact W2_of_ne m ρ c b (fun w e => h ⟨w, e⟩)

theorem W4_keep (c : Dev nD) (b : Ref sig .tc) (hb : b ≠ main_v3) :
    W4 m ρ c (Proc.devRef .tc b) = W3 m ρ c (Proc.devRef .tc b) := by
  by_cases h : ∃ w, Pipeline.arrRef spec1 w = b
  · obtain ⟨w, rfl⟩ := h
    match w, hb with
    | ⟨0, _⟩, _ => exact (W4_arr m ρ c 0).trans (((dat1 (V3 m ρ) c).arrAt_in 0 rfl _).trans (A_eq1 (V3 m ρ) c 0))
    | ⟨1, _⟩, _ => exact (W4_arr m ρ c 1).trans (((dat1 (V3 m ρ) c).arrAt_in 1 rfl _).trans (A_eq1 (V3 m ρ) c 1))
    | ⟨2, _⟩, _ => exact (W4_arr m ρ c 2).trans (((dat1 (V3 m ρ) c).arrAt_in 2 rfl _).trans (A_eq1 (V3 m ρ) c 2))
    | ⟨3, _⟩, hb => exact absurd rfl hb
  · exact W4_of_ne m ρ c b (fun w e => h ⟨w, e⟩)

theorem W11_keep (c : Dev nD) (b : Ref sig .tc) (hb : b ≠ main_v89) :
    W11 m ρ c (Proc.devRef .tc b) = W10 m ρ c (Proc.devRef .tc b) := by
  by_cases h : ∃ w, Pipeline.arrRef spec2 w = b
  · obtain ⟨w, rfl⟩ := h
    have hw : (cfg2.win w).isOut = false :=
      (by decide : ∀ w : Fin 10, Pipeline.arrRef spec2 w ≠ main_v89 → (cfg2.win w).isOut = false) w hb
    exact (W11_arr m ρ c w).trans (((dat2 (V10 m ρ) c).arrAt_in w hw _).trans (A_eq2 (V10 m ρ) c w))
  · exact W11_of_ne m ρ c b (fun w e => h ⟨w, e⟩)

theorem W12_arg (c : Dev nD) (b : Ref sig .tc) (hb : b ∈ argList) :
    W12 m ρ c (Proc.devRef .tc b) = m ((c : Thread nD τ).loc b) :=
  calc W12 m ρ c (Proc.devRef .tc b)
    _ = W11 m ρ c (Proc.devRef .tc b) := hkeep 8 _ b hb
    _ = W10 m ρ c (Proc.devRef .tc b) := W11_keep m ρ c b ((by decide : ∀ b ∈ argList, b ≠ main_v89) b hb)
    _ = W9 m ρ c (Proc.devRef .tc b) := hkeep 7 _ b hb
    _ = W8 m ρ c (Proc.devRef .tc b) := hkeep 6 _ b hb
    _ = W7 m ρ c (Proc.devRef .tc b) := hkeep 5 _ b hb
    _ = W6 m ρ c (Proc.devRef .tc b) := hkeep 4 _ b hb
    _ = W5 m ρ c (Proc.devRef .tc b) := hkeep 3 _ b hb
    _ = W4 m ρ c (Proc.devRef .tc b) := hkeep 2 _ b hb
    _ = W3 m ρ c (Proc.devRef .tc b) := W4_keep m ρ c b ((by decide : ∀ b ∈ argList, b ≠ main_v3) b hb)
    _ = W2 m ρ c (Proc.devRef .tc b) := hkeep 1 _ b hb
    _ = W1 m ρ c (Proc.devRef .tc b) := W2_keep m ρ c b ((by decide : ∀ b ∈ argList, b ≠ main_v1) b hb)
    _ = W0 m ρ c (Proc.devRef .tc b) := hkeep 0 _ b hb
    _ = m ((c : Thread nD τ).loc b) := rfl

abbrev adm : (p : Fin 3) → (pcfgs (F := F) p).Adm := fun p => (cfgs p).toPCfg_adm
noncomputable def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V10 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W12 m ρ c) ∗ ∃ r, prngReg c r)

-- A valuation read at a core's own references.
abbrev atTc (W : Dev nD → Valuation τ sig (Elt F)) : (c : Dev nD) → (b : Ref sig .tc) → Buf (Elt F) ((c : Thread nD τ).loc b) :=
  fun c b => W c b

set_option backward.isDefEq.respectTransparency.types false in
-- A kernel region as one step of the run, entered with the buffers at Win and left with them at Wout.
noncomputable def regOf (p : Fin 3) (lf : Pipeline.LaunchFacts (nD := nD) (τ := τ) cfgs p) (Win Wout : Dev nD → Valuation τ sig (Elt F))
    (hbody : ∀ c, Pipeline.BodyObligationLoose (pdats m ρ p c) (defs₀ (F := F)) 𝒱₀ () Set.univ)
    (hq : ∀ c w, (pdats m ρ p c).q w = fullShare) (howed : ∀ c t, (pdats m ρ p c).owed t = 0)
    (hrec : ∀ c x, x ∈ (pdats m ρ p c).recorded 0)
    (hΦ : ∀ c t, (pdats m ρ p c).Φ t = Pipeline.ΦA (cfgs p).spec c)
    (hA : ∀ c w, (pdats m ρ p c).A w = atTc Win c (Pipeline.arrRef (cfgs p).spec w))
    (hF : ∀ c w, (pdats m ρ p c).arrAt w (cfgs p).N = atTc Wout c (Pipeline.arrRef (cfgs p).spec w))
    (hrest : ∀ c b, b ∉ Finset.univ.image (Pipeline.arrRef (cfgs p).spec) → atTc Wout c b = atTc Win c b) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Win c)
  hentry c := by
    rw [Pipeline.ownSems0_none]
    have hsplit := Pipeline.arrays_of_unscopedBufs (p := p) (pcfgs (F := F)) adm (pdats m ρ) lf.win lf.arr_whole c
      ((pdats m ρ p c).share_full (hq c)) (atTc Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (hrec c x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (atTc Win c) (atTc Wout c) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
noncomputable def reg0 : Pipeline.RegionSeg (pcfgs (F := F)) adm (pdats m ρ) () defs₀ 𝒱₀ L lv 0 :=
  regOf m ρ 0 launch0 (W1 m ρ) (W2 m ρ) (fun c => (body_obligation0 (V1 m ρ) c).loose) (fun _ _ => rfl) (fun _ _ => rfl)
    (fun _ _ => trivial) (fun _ _ => rfl) (fun _ _ => rfl) (fun c w => (W2_arr m ρ c w).symm)
    fun c b hb => W2_of_ne m ρ c b fun w e => hb (Finset.mem_image.mpr ⟨w, Finset.mem_univ _, e⟩)
set_option backward.isDefEq.respectTransparency.types false in
noncomputable def reg1 : Pipeline.RegionSeg (pcfgs (F := F)) adm (pdats m ρ) () defs₀ 𝒱₀ L lv 1 :=
  regOf m ρ 1 launch1 (W3 m ρ) (W4 m ρ) (fun c => (body_obligation1 (V3 m ρ) c).loose) (fun _ _ => rfl) (fun _ _ => rfl)
    (fun _ _ => trivial) (fun _ _ => rfl) (fun _ _ => rfl) (fun c w => (W4_arr m ρ c w).symm)
    fun c b hb => W4_of_ne m ρ c b fun w e => hb (Finset.mem_image.mpr ⟨w, Finset.mem_univ _, e⟩)
set_option backward.isDefEq.respectTransparency.types false in
noncomputable def reg2 : Pipeline.RegionSeg (pcfgs (F := F)) adm (pdats m ρ) () defs₀ 𝒱₀ L lv 2 :=
  regOf m ρ 2 launch2 (W10 m ρ) (W11 m ρ) (fun c => (body_obligation2 (V10 m ρ) c).loose) (fun _ _ => rfl) (fun _ _ => rfl)
    (fun _ _ => trivial) (fun _ _ => rfl) (fun _ _ => rfl) (fun c w => (W11_arr m ρ c w).symm)
    fun c b hb => W11_of_ne m ρ c b fun w e => hb (Finset.mem_image.mpr ⟨w, Finset.mem_univ _, e⟩)

abbrev segs : List (Pipeline.Seg (pcfgs (F := F)) adm (pdats m ρ) () defs₀ 𝒱₀ L lv) :=
  [ .host (hseg main_part0_ops0 main_part0_ops0_sub (hfresh 0) (W0 m ρ)),
    .region (reg0 m ρ),
    .host (hseg main_part0_ops1 main_part0_ops1_sub (hfresh 1) (W2 m ρ)),
    .region (reg1 m ρ),
    .host (hseg main_part0_ops2 main_part0_ops2_sub (hfresh 2) (W4 m ρ)),
    .host (hseg main_part0_ops3 main_part0_ops3_sub (hfresh 3) (W5 m ρ)),
    .host (hseg main_part0_ops4 main_part0_ops4_sub (hfresh 4) (W6 m ρ)),
    .host (hseg main_part0_ops5 main_part0_ops5_sub (hfresh 5) (W7 m ρ)),
    .host (hseg main_part0_ops6 main_part0_ops6_sub (hfresh 6) (W8 m ρ)),
    .host (hseg main_part1_ops0 main_part1_ops0_sub (hfresh 7) (W9 m ρ)),
    .region (reg2 m ρ),
    .host (hseg main_part1_ops1 main_part1_ops1_sub (hfresh 8) (W11 m ρ)) ]
theorem main_run (c : Dev nD) : main (F := F) c = Pipeline.Seg.run (segs m ρ) := (main_chain_windows c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W12 m ρ c (Proc.devRef .tc b)) :=
  (θ_run defs _ _).mono (fun _ h c b hb => h c _ (mem_uc b hb)) (run_all m ρ)

theorem frame_args : θ_run defs (onTc (τ := τ) (main (F := F))) ⟨m, fun _ => 0, ρ⟩ (fun r => ∀ c : Dev nD,
      ∀ b ∈ argList, r.2.mem ((c.tc : Thread nD τ).loc b) = m ((c.tc : Thread nD τ).loc b)) :=
  (θ_run defs _ _).mono (fun _ h c b hb =>
      (h c b ((by decide : ∀ b ∈ argList, ¬ (Proc.devRef .tc b : DevRef τ sig).isScoped) b hb)).trans (W12_arg m ρ c b hb))
    (run_at m ρ)

end Cert.KernelIdeal.Hand

end
-- ==== Proof.Ref.Ops.lean ====
/-
  The reference's @main as lists of host operations, 167 in all, every outlined function's body written in the
  place of its call over the call's own buffers.
-/
import proofs.«400336_j15375982920184_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- Operations 1 … 40 of 167 of the reference's @main, calls inlined, in order. -/
abbrev ops0 : List (HloOp τ sig (Elt F)) :=
  ( StableHlo.nullary main_cst (constant S_ .f32 0x3F800000#32)
  :: StableHlo.unary main_cst main_v0 (broadcastInDim S1600000 ![] bcast_S_S1600000 : (⟨S_, .f32⟩ : BufTy).Contents (Elt F) → (⟨S1600000, .f32⟩ : BufTy).Contents (Elt F))
  :: StableHlo.nullary main_cst_0 (constant S_ .f32 0x00000000#32)
  :: StableHlo.unary main_cst_0 main_v1 (broadcastInDim S100000 ![] bcast_S_S100000 : (⟨S_, .f32⟩ : BufTy).Contents (Elt F) → (⟨S100000, .f32⟩ : BufTy).Contents (Elt F))
  :: StableHlo.unary main_arg12 main_v2 (broadcastInDim S1600000x1 ![0] bcast_S1600000_S1600000x1_0 : (⟨S1600000, .i32⟩ : BufTy).Contents (Elt F) → (⟨S1600000x1, .i32⟩ : BufTy).Contents (Elt F))
  :: StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F))
  :: StableHlo.nullary main_cst_1 (constant S_ .f32 0x00000000#32)
  :: StableHlo.unary main_cst_1 main_v4 (broadcastInDim S100000 ![] bcast_S_S100000 : (⟨S_, .f32⟩ : BufTy).Contents (Elt F) → (⟨S100000, .f32⟩ : BufTy).Contents (Elt F))
  :: StableHlo.unary main_arg13 main_v5 (broadcastInDim S1600000x1 ![0] bcast_S1600000_S1600000x1_0 : (⟨S1600000, .i32⟩ : BufTy).Contents (Elt F) → (⟨S1600000x1, .i32⟩ : BufTy).Contents (Elt F))
  :: StableHlo.ternary main_v4 main_v5 main_v0 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F))
  :: StableHlo.nullary main_cst_2 (constant S_ .f32 0x3F800000#32)
  :: StableHlo.TRef.unary (.of main_cst_2 : StableHlo.TRef sig ⟨S_, .f32⟩) main_call0.v0 id
  :: StableHlo.TRef.unary main_call0.v0 main_call0.v1 (broadcastInDim S100000 ![] bcast_S_S100000)
  :: StableHlo.TRef.binary main_call0.v1 (.of main_v3 : StableHlo.TRef sig ⟨S100000, .f32⟩) main_call0.v2 maximumf
  :: StableHlo.unary main_v7 main_v8 (Host.rsqrt : (⟨S100000, .f32⟩ : BufTy).Contents (Elt F) → (⟨S100000, .f32⟩ : BufTy).Contents (Elt F))
  :: StableHlo.unary main_v8 main_v9 (broadcastInDim S100000x1 ![0] bcast_S100000_S100000x1_0 : (⟨S100000, .f32⟩ : BufTy).Contents (Elt F) → (⟨S100000x1, .f32⟩ : BufTy).Contents (Elt F))
  :: StableHlo.nullary main_cst_3 (constant S_ .f32 0x3F800000#32)
  :: StableHlo.TRef.unary (.of main_cst_3 : StableHlo.TRef sig ⟨S_, .f32⟩) main_call1.v0 id
  :: StableHlo.TRef.unary main_call1.v0 main_call1.v1 (broadcastInDim S100000 ![] bcast_S_S100000)
  :: StableHlo.TRef.binary main_call1.v1 (.of main_v6 : StableHlo.TRef sig ⟨S100000, .f32⟩) main_call1.v2 maximumf
  :: StableHlo.unary main_v10 main_v11 (Host.rsqrt : (⟨S100000, .f32⟩ : BufTy).Contents (Elt F) → (⟨S100000, .f32⟩ : BufTy).Contents (Elt F))
  :: StableHlo.unary main_v11 main_v12 (broadcastInDim S100000x1 ![0] bcast_S100000_S100000x1_0 : (⟨S100000, .f32⟩ : BufTy).Contents (Elt F) → (⟨S100000x1, .f32⟩ : BufTy).Contents (Elt F))
  :: StableHlo.binary main_arg0 main_arg5 main_v13 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F))
  :: StableHlo.unary main_arg6 main_v14 (broadcastInDim S1x64 ![1] bcast_S64_S1x64_1 : (⟨S64, .f32⟩ : BufTy).Contents (Elt F) → (⟨S1x64, .f32⟩ : BufTy).Contents (Elt F))
  :: StableHlo.unary main_v14 main_v15 (broadcastInDim S50000x64 ![0, 1] bcast_S1x64_S50000x64_0_1 : (⟨S1x64, .f32⟩ : BufTy).Contents (Elt F) → (⟨S50000x64, .f32⟩ : BufTy).Contents (Elt F))
  :: StableHlo.binary main_v13 main_v15 main_v16 (addf : (⟨S50000x64, .f32⟩ : BufTy).Contents (Elt F) → (⟨S50000x64, .f32⟩ : BufTy).Contents (Elt F) → (⟨S50000x64, .f32⟩ : BufTy).Contents (Elt F))
  :: StableHlo.TRef.nullary main_call2.cst (constant S_ .f32 0x00000000#32)
  :: StableHlo.TRef.unary main_call2.cst main_call2.v0 (broadcastInDim S50000x64 ![] bcast_S_S50000x64)
  :: StableHlo.TRef.binary (.of main_v16 : StableHlo.TRef sig ⟨S50000x64, .f32⟩) main_call2.v0 main_call2.v1 maximumf
  :: StableHlo.binary main_arg1 main_arg7 main_v18 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F))
  :: StableHlo.unary main_arg8 main_v19 (broadcastInDim S1x64 ![1] bcast_S64_S1x64_1 : (⟨S64, .f32⟩ : BufTy).Contents (Elt F) → (⟨S1x64, .f32⟩ : BufTy).Contents (Elt F))
  :: StableHlo.unary main_v19 main_v20 (broadcastInDim S50000x64 ![0, 1] bcast_S1x64_S50000x64_0_1 : (⟨S1x64, .f32⟩ : BufTy).Contents (Elt F) → (⟨S50000x64, .f32⟩ : BufTy).Contents (Elt F))
  :: StableHlo.binary main_v18 main_v20 main_v21 (addf : (⟨S50000x64, .f32⟩ : BufTy).Contents (Elt F) → (⟨S50000x64, .f32⟩ : BufTy).Contents (Elt F) → (⟨S50000x64, .f32⟩ : BufTy).Contents (Elt F))
  :: StableHlo.TRef.nullary main_call3.cst (constant S_ .f32 0x00000000#32)
  :: StableHlo.TRef.unary main_call3.cst main_call3.v0 (broadcastInDim S50000x64 ![] bcast_S_S50000x64)
  :: StableHlo.TRef.binary (.of main_v21 : StableHlo.TRef sig ⟨S50000x64, .f32⟩) main_call3.v0 main_call3.v1 maximumf
  :: StableHlo.binary main_v17 main_v22 main_v23 ((fun a b => concatenate S100000x64 0 [⟨S50000x64, a⟩, ⟨S50000x64, b⟩] concatenates_S50000x64_S50000x64_S100000x64_d0) : (⟨S50000x64, .f32⟩ : BufTy).Contents (Elt F) → (⟨S50000x64, .f32⟩ : BufTy).Contents (Elt F) → (⟨S100000x64, .f32⟩ : BufTy).Contents (Elt F))
  :: StableHlo.unary main_v9 main_v24 (broadcastInDim S100000x64 ![0, 1] bcast_S100000x1_S100000x64_0_1 : (⟨S100000x1, .f32⟩ : BufTy).Contents (Elt F) → (⟨S100000x64, .f32⟩ : BufTy).Contents (Elt F))
  :: StableHlo.binary main_v23 main_v24 main_v25 (mulf : (⟨S100000x64, .f32⟩ : BufTy).Contents (Elt F) → (⟨S100000x64, .f32⟩ : BufTy).Contents (Elt F) → (⟨S100000x64, .f32⟩ : BufTy).Contents (Elt F))
  :: StableHlo.nullary main_c (constantI S_ 32 0#32)
  :: [] )

set_option maxHeartbeats 40000000 in
/-- Operations 41 … 80 of 167 of the reference's @main, calls inlined, in order. -/
abbrev ops1 : List (HloOp τ sig (Elt F)) :=
  ( StableHlo.unary main_c main_v26 (broadcastInDim S1600000 ![] bcast_S_S1600000 : (⟨S_, .i32⟩ : BufTy).Contents (Elt F) → (⟨S1600000, .i32⟩ : BufTy).Contents (Elt F))
  :: StableHlo.binary main_arg12 main_v26 main_v27 (cmpi .slt : (⟨S1600000, .i32⟩ : BufTy).Contents (Elt F) → (⟨S1600000, .i32⟩ : BufTy).Contents (Elt F) → (⟨S1600000, .i1⟩ : BufTy).Contents (Elt F))
  :: StableHlo.nullary main_c_4 (constantI S_ 32 100000#32)
  :: StableHlo.unary main_c_4 main_v28 (broadcastInDim S1600000 ![] bcast_S_S1600000 : (⟨S_, .i32⟩ : BufTy).Contents (Elt F) → (⟨S1600000, .i32⟩ : BufTy).Contents (Elt F))
  :: StableHlo.binary main_arg12 main_v28 main_v29 (addi : (⟨S1600000, .i32⟩ : BufTy).Contents (Elt F) → (⟨S1600000, .i32⟩ : BufTy).Contents (Elt F) → (⟨S1600000, .i32⟩ : BufTy).Contents (Elt F))
  :: StableHlo.ternary main_v27 main_v29 main_arg12 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v30 main_v31 (broadcastInDim S1600000x1 ![0] bcast_S1600000_S1600000x1_0 : (⟨S1600000, .i32⟩ : BufTy).Contents (Elt F) → (⟨S1600000x1, .i32⟩ : BufTy).Contents (Elt F))
  :: StableHlo.binary main_v25 main_v31 main_v32 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))
  :: StableHlo.nullary main_cst_5 (constant S_ .f32 0x00000000#32)
  :: StableHlo.unary main_cst_5 main_v33 (broadcastInDim S100000x64 ![] bcast_S_S100000x64 : (⟨S_, .f32⟩ : BufTy).Contents (Elt F) → (⟨S100000x64, .f32⟩ : BufTy).Contents (Elt F))
  :: StableHlo.unary main_arg13 main_v34 (broadcastInDim S1600000x1 ![0] bcast_S1600000_S1600000x1_0 : (⟨S1600000, .i32⟩ : BufTy).Contents (Elt F) → (⟨S1600000x1, .i32⟩ : BufTy).Contents (Elt F))
  :: StableHlo.ternary main_v33 main_v34 main_v32 main_v35 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
  :: StableHlo.unary main_v12 main_v36 (broadcastInDim S100000x64 ![0, 1] bcast_S100000x1_S100000x64_0_1 : (⟨S100000x1, .f32⟩ : BufTy).Contents (Elt F) → (⟨S100000x64, .f32⟩ : BufTy).Contents (Elt F))
  :: StableHlo.binary main_v35 main_v36 main_v37 (mulf : (⟨S100000x64, .f32⟩ : BufTy).Contents (Elt F) → (⟨S100000x64, .f32⟩ : BufTy).Contents (Elt F) → (⟨S100000x64, .f32⟩ : BufTy).Contents (Elt F))
  :: StableHlo.unary main_v37 main_v38 ((extractStridedSlice S50000x64 ![0, 0] · slices_S100000x64_S50000x64_0_0) : (⟨S100000x64, .f32⟩ : BufTy).Contents (Elt F) → (⟨S50000x64, .f32⟩ : BufTy).Contents (Elt F))
  :: StableHlo.nullary main_cst_6 (constant S_ .f32 0x3F000000#32)
  :: StableHlo.unary main_cst_6 main_v39 (broadcastInDim S50000x64 ![] bcast_S_S50000x64 : (⟨S_, .f32⟩ : BufTy).Contents (Elt F) → (⟨S50000x64, .f32⟩ : BufTy).Contents (Elt F))
  :: StableHlo.binary main_v38 main_v39 main_v40 (mulf : (⟨S50000x64, .f32⟩ : BufTy).Contents (Elt F) → (⟨S50000x64, .f32⟩ : BufTy).Contents (Elt F) → (⟨S50000x64, .f32⟩ : BufTy).Contents (Elt F))
  :: StableHlo.binary main_v17 main_v40 main_v41 (addf : (⟨S50000x64, .f32⟩ : BufTy).Contents (Elt F) → (⟨S50000x64, .f32⟩ : BufTy).Contents (Elt F) → (⟨S50000x64, .f32⟩ : BufTy).Contents (Elt F))
  :: StableHlo.unary main_v37 main_v42 ((extractStridedSlice S50000x64 ![50000, 0] · slices_S100000x64_S50000x64_50000_0) : (⟨S100000x64, .f32⟩ : BufTy).Contents (Elt F) → (⟨S50000x64, .f32⟩ : BufTy).Contents (Elt F))
  :: StableHlo.nullary main_cst_7 (constant S_ .f32 0x3F000000#32)
  :: StableHlo.unary main_cst_7 main_v43 (broadcastInDim S50000x64 ![] bcast_S_S50000x64 : (⟨S_, .f32⟩ : BufTy).Contents (Elt F) → (⟨S50000x64, .f32⟩ : BufTy).Contents (Elt F))
  :: StableHlo.binary main_v42 main_v43 main_v44 (mulf : (⟨S50000x64, .f32⟩ : BufTy).Contents (Elt F) → (⟨S50000x64, .f32⟩ : BufTy).Contents (Elt F) → (⟨S50000x64, .f32⟩ : BufTy).Contents (Elt F))
  :: StableHlo.binary main_v22 main_v44 main_v45 (addf : (⟨S50000x64, .f32⟩ : BufTy).Contents (Elt F) → (⟨S50000x64, .f32⟩ : BufTy).Contents (Elt F) → (⟨S50000x64, .f32⟩ : BufTy).Contents (Elt F))
  :: StableHlo.unary main_v9 main_v46 (broadcastInDim S100000x64 ![0, 1] bcast_S100000x1_S100000x64_0_1 : (⟨S100000x1, .f32⟩ : BufTy).Contents (Elt F) → (⟨S100000x64, .f32⟩ : BufTy).Contents (Elt F))
  :: StableHlo.binary main_v37 main_v46 main_v47 (mulf : (⟨S100000x64, .f32⟩ : BufTy).Contents (Elt F) → (⟨S100000x64, .f32⟩ : BufTy).Contents (Elt F) → (⟨S100000x64, .f32⟩ : BufTy).Contents (Elt F))
  :: StableHlo.nullary main_c_8 (constantI S_ 32 0#32)
  :: StableHlo.unary main_c_8 main_v48 (broadcastInDim S1600000 ![] bcast_S_S1600000 : (⟨S_, .i32⟩ : BufTy).Contents (Elt F) → (⟨S1600000, .i32⟩ : BufTy).Contents (Elt F))
  :: StableHlo.binary main_arg12 main_v48 main_v49 (cmpi .slt : (⟨S1600000, .i32⟩ : BufTy).Contents (Elt F) → (⟨S1600000, .i32⟩ : BufTy).Contents (Elt F) → (⟨S1600000, .i1⟩ : BufTy).Contents (Elt F))
  :: StableHlo.nullary main_c_9 (constantI S_ 32 100000#32)
  :: StableHlo.unary main_c_9 main_v50 (broadcastInDim S1600000 ![] bcast_S_S1600000 : (⟨S_, .i32⟩ : BufTy).Contents (Elt F) → (⟨S1600000, .i32⟩ : BufTy).Contents (Elt F))
  :: StableHlo.binary main_arg12 main_v50 main_v51 (addi : (⟨S1600000, .i32⟩ : BufTy).Contents (Elt F) → (⟨S1600000, .i32⟩ : BufTy).Contents (Elt F) → (⟨S1600000, .i32⟩ : BufTy).Contents (Elt F))
  :: StableHlo.ternary main_v49 main_v51 main_arg12 main_v52 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v52 main_v53 (broadcastInDim S1600000x1 ![0] bcast_S1600000_S1600000x1_0 : (⟨S1600000, .i32⟩ : BufTy).Contents (Elt F) → (⟨S1600000x1, .i32⟩ : BufTy).Contents (Elt F))
  :: StableHlo.binary main_v47 main_v53 main_v54 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))
  :: StableHlo.nullary main_cst_10 (constant S_ .f32 0x00000000#32)
  :: StableHlo.unary main_cst_10 main_v55 (broadcastInDim S100000x64 ![] bcast_S_S100000x64 : (⟨S_, .f32⟩ : BufTy).Contents (Elt F) → (⟨S100000x64, .f32⟩ : BufTy).Contents (Elt F))
  :: StableHlo.unary main_arg13 main_v56 (broadcastInDim S1600000x1 ![0] bcast_S1600000_S1600000x1_0 : (⟨S1600000, .i32⟩ : BufTy).Contents (Elt F) → (⟨S1600000x1, .i32⟩ : BufTy).Contents (Elt F))
  :: StableHlo.ternary main_v55 main_v56 main_v54 main_v57 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
  :: StableHlo.unary main_v12 main_v58 (broadcastInDim S100000x64 ![0, 1] bcast_S100000x1_S100000x64_0_1 : (⟨S100000x1, .f32⟩ : BufTy).Contents (Elt F) → (⟨S100000x64, .f32⟩ : BufTy).Contents (Elt F))
  :: [] )

set_option maxHeartbeats 40000000 in
/-- Operations 81 … 120 of 167 of the reference's @main, calls inlined, in order. -/
abbrev ops2 : List (HloOp τ sig (Elt F)) :=
  ( StableHlo.binary main_v57 main_v58 main_v59 (mulf : (⟨S100000x64, .f32⟩ : BufTy).Contents (Elt F) → (⟨S100000x64, .f32⟩ : BufTy).Contents (Elt F) → (⟨S100000x64, .f32⟩ : BufTy).Contents (Elt F))
  :: StableHlo.unary main_v59 main_v60 ((extractStridedSlice S50000x64 ![0, 0] · slices_S100000x64_S50000x64_0_0) : (⟨S100000x64, .f32⟩ : BufTy).Contents (Elt F) → (⟨S50000x64, .f32⟩ : BufTy).Contents (Elt F))
  :: StableHlo.nullary main_cst_11 (constant S_ .f32 0x3EAAAAAB#32)
  :: StableHlo.unary main_cst_11 main_v61 (broadcastInDim S50000x64 ![] bcast_S_S50000x64 : (⟨S_, .f32⟩ : BufTy).Contents (Elt F) → (⟨S50000x64, .f32⟩ : BufTy).Contents (Elt F))
  :: StableHlo.binary main_v60 main_v61 main_v62 (mulf : (⟨S50000x64, .f32⟩ : BufTy).Contents (Elt F) → (⟨S50000x64, .f32⟩ : BufTy).Contents (Elt F) → (⟨S50000x64, .f32⟩ : BufTy).Contents (Elt F))
  :: StableHlo.binary main_v41 main_v62 main_v63 (addf : (⟨S50000x64, .f32⟩ : BufTy).Contents (Elt F) → (⟨S50000x64, .f32⟩ : BufTy).Contents (Elt F) → (⟨S50000x64, .f32⟩ : BufTy).Contents (Elt F))
  :: StableHlo.unary main_v59 main_v64 ((extractStridedSlice S50000x64 ![50000, 0] · slices_S100000x64_S50000x64_50000_0) : (⟨S100000x64, .f32⟩ : BufTy).Contents (Elt F) → (⟨S50000x64, .f32⟩ : BufTy).Contents (Elt F))
  :: StableHlo.nullary main_cst_12 (constant S_ .f32 0x3EAAAAAB#32)
  :: StableHlo.unary main_cst_12 main_v65 (broadcastInDim S50000x64 ![] bcast_S_S50000x64 : (⟨S_, .f32⟩ : BufTy).Contents (Elt F) → (⟨S50000x64, .f32⟩ : BufTy).Contents (Elt F))
  :: StableHlo.binary main_v64 main_v65 main_v66 (mulf : (⟨S50000x64, .f32⟩ : BufTy).Contents (Elt F) → (⟨S50000x64, .f32⟩ : BufTy).Contents (Elt F) → (⟨S50000x64, .f32⟩ : BufTy).Contents (Elt F))
  :: StableHlo.binary main_v45 main_v66 main_v67 (addf : (⟨S50000x64, .f32⟩ : BufTy).Contents (Elt F) → (⟨S50000x64, .f32⟩ : BufTy).Contents (Elt F) → (⟨S50000x64, .f32⟩ : BufTy).Contents (Elt F))
  :: StableHlo.binary main_v67 main_arg2 main_v68 (addf : (⟨S50000x64, .f32⟩ : BufTy).Contents (Elt F) → (⟨S50000x64, .f32⟩ : BufTy).Contents (Elt F) → (⟨S50000x64, .f32⟩ : BufTy).Contents (Elt F))
  :: StableHlo.nullary main_c_13 (constantI S_ 32 0#32)
  :: StableHlo.unary main_c_13 main_v69 (broadcastInDim S200000 ![] bcast_S_S200000 : (⟨S_, .i32⟩ : BufTy).Contents (Elt F) → (⟨S200000, .i32⟩ : BufTy).Contents (Elt F))
  :: StableHlo.binary main_arg14 main_v69 main_v70 (cmpi .slt : (⟨S200000, .i32⟩ : BufTy).Contents (Elt F) → (⟨S200000, .i32⟩ : BufTy).Contents (Elt F) → (⟨S200000, .i1⟩ : BufTy).Contents (Elt F))
  :: StableHlo.nullary main_c_14 (constantI S_ 32 50000#32)
  :: StableHlo.unary main_c_14 main_v71 (broadcastInDim S200000 ![] bcast_S_S200000 : (⟨S_, .i32⟩ : BufTy).Contents (Elt F) → (⟨S200000, .i32⟩ : BufTy).Contents (Elt F))
  :: StableHlo.binary main_arg14 main_v71 main_v72 (addi : (⟨S200000, .i32⟩ : BufTy).Contents (Elt F) → (⟨S200000, .i32⟩ : BufTy).Contents (Elt F) → (⟨S200000, .i32⟩ : BufTy).Contents (Elt F))
  :: StableHlo.ternary main_v70 main_v72 main_arg14 main_v73 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v73 main_v74 (broadcastInDim S200000x1 ![0] bcast_S200000_S200000x1_0 : (⟨S200000, .i32⟩ : BufTy).Contents (Elt F) → (⟨S200000x1, .i32⟩ : BufTy).Contents (Elt F))
  :: StableHlo.binary main_v63 main_v74 main_v75 ((fun x i => Host.gather gather_S50000x64_S200000x1_S200000x64_1_0_n_n_0_1_164 x i) : (⟨S50000x64, .f32⟩ : BufTy).Contents (Elt F) → (⟨S200000x1, .i32⟩ : BufTy).Contents (Elt F) → (⟨S200000x64, .f32⟩ : BufTy).Contents (Elt F))
  :: StableHlo.nullary main_c_15 (constantI S_ 32 0#32)
  :: StableHlo.unary main_c_15 main_v76 (broadcastInDim S200000 ![] bcast_S_S200000 : (⟨S_, .i32⟩ : BufTy).Contents (Elt F) → (⟨S200000, .i32⟩ : BufTy).Contents (Elt F))
  :: StableHlo.binary main_arg15 main_v76 main_v77 (cmpi .slt : (⟨S200000, .i32⟩ : BufTy).Contents (Elt F) → (⟨S200000, .i32⟩ : BufTy).Contents (Elt F) → (⟨S200000, .i1⟩ : BufTy).Contents (Elt F))
  :: StableHlo.nullary main_c_16 (constantI S_ 32 50000#32)
  :: StableHlo.unary main_c_16 main_v78 (broadcastInDim S200000 ![] bcast_S_S200000 : (⟨S_, .i32⟩ : BufTy).Contents (Elt F) → (⟨S200000, .i32⟩ : BufTy).Contents (Elt F))
  :: StableHlo.binary main_arg15 main_v78 main_v79 (addi : (⟨S200000, .i32⟩ : BufTy).Contents (Elt F) → (⟨S200000, .i32⟩ : BufTy).Contents (Elt F) → (⟨S200000, .i32⟩ : BufTy).Contents (Elt F))
  :: StableHlo.ternary main_v77 main_v79 main_arg15 main_v80 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v80 main_v81 (broadcastInDim S200000x1 ![0] bcast_S200000_S200000x1_0 : (⟨S200000, .i32⟩ : BufTy).Contents (Elt F) → (⟨S200000x1, .i32⟩ : BufTy).Contents (Elt F))
  :: StableHlo.binary main_v68 main_v81 main_v82 ((fun x i => Host.gather gather_S50000x64_S200000x1_S200000x64_1_0_n_n_0_1_164 x i) : (⟨S50000x64, .f32⟩ : BufTy).Contents (Elt F) → (⟨S200000x1, .i32⟩ : BufTy).Contents (Elt F) → (⟨S200000x64, .f32⟩ : BufTy).Contents (Elt F))
  :: StableHlo.nullary main_c_17 (constantI S_ 32 0#32)
  :: StableHlo.unary main_c_17 main_v83 (broadcastInDim S200000 ![] bcast_S_S200000 : (⟨S_, .i32⟩ : BufTy).Contents (Elt F) → (⟨S200000, .i32⟩ : BufTy).Contents (Elt F))
  :: StableHlo.binary main_arg16 main_v83 main_v84 (cmpi .slt : (⟨S200000, .i32⟩ : BufTy).Contents (Elt F) → (⟨S200000, .i32⟩ : BufTy).Contents (Elt F) → (⟨S200000, .i1⟩ : BufTy).Contents (Elt F))
  :: StableHlo.nullary main_c_18 (constantI S_ 32 50000#32)
  :: StableHlo.unary main_c_18 main_v85 (broadcastInDim S200000 ![] bcast_S_S200000 : (⟨S_, .i32⟩ : BufTy).Contents (Elt F) → (⟨S200000, .i32⟩ : BufTy).Contents (Elt F))
  :: StableHlo.binary main_arg16 main_v85 main_v86 (addi : (⟨S200000, .i32⟩ : BufTy).Contents (Elt F) → (⟨S200000, .i32⟩ : BufTy).Contents (Elt F) → (⟨S200000, .i32⟩ : BufTy).Contents (Elt F))
  :: StableHlo.ternary main_v84 main_v86 main_arg16 main_v87 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v87 main_v88 (broadcastInDim S200000x1 ![0] bcast_S200000_S200000x1_0 : (⟨S200000, .i32⟩ : BufTy).Contents (Elt F) → (⟨S200000x1, .i32⟩ : BufTy).Contents (Elt F))
  :: StableHlo.binary main_v68 main_v88 main_v89 ((fun x i => Host.gather gather_S50000x64_S200000x1_S200000x64_1_0_n_n_0_1_164 x i) : (⟨S50000x64, .f32⟩ : BufTy).Contents (Elt F) → (⟨S200000x1, .i32⟩ : BufTy).Contents (Elt F) → (⟨S200000x64, .f32⟩ : BufTy).Contents (Elt F))
  :: StableHlo.binary main_v75 main_v75 main_v90 ((fun a b => concatenate S400000x64 0 [⟨S200000x64, a⟩, ⟨S200000x64, b⟩] concatenates_S200000x64_S200000x64_S400000x64_d0) : (⟨S200000x64, .f32⟩ : BufTy).Contents (Elt F) → (⟨S200000x64, .f32⟩ : BufTy).Contents (Elt F) → (⟨S400000x64, .f32⟩ : BufTy).Contents (Elt F))
  :: [] )

set_option maxHeartbeats 40000000 in
/-- Operations 121 … 160 of 167 of the reference's @main, calls inlined, in order. -/
abbrev ops3 : List (HloOp τ sig (Elt F)) :=
  ( StableHlo.binary main_v82 main_v89 main_v91 ((fun a b => concatenate S400000x64 0 [⟨S200000x64, a⟩, ⟨S200000x64, b⟩] concatenates_S200000x64_S200000x64_S400000x64_d0) : (⟨S200000x64, .f32⟩ : BufTy).Contents (Elt F) → (⟨S200000x64, .f32⟩ : BufTy).Contents (Elt F) → (⟨S400000x64, .f32⟩ : BufTy).Contents (Elt F))
  :: StableHlo.unary main_arg3 main_v92 (broadcastInDim S400000x1 ![0] bcast_S400000_S400000x1_0 : (⟨S400000, .f32⟩ : BufTy).Contents (Elt F) → (⟨S400000x1, .f32⟩ : BufTy).Contents (Elt F))
  :: StableHlo.nary ![main_v90, main_v91, main_v92] main_v93 (fun u => concatenate S400000x129 1 [⟨S400000x64, u 0⟩, ⟨S400000x64, u 1⟩, ⟨S400000x1, u 2⟩] concatenates_S400000x64_S400000x64_S400000x1_S400000x129_d1)
  :: StableHlo.binary main_v93 main_arg9 main_v94 ((fun l r => Host.dotGeneral dot_S400000x129_S129x64_S400000x64_1_0_0_1_n_n none l r) : (⟨S400000x129, .f32⟩ : BufTy).Contents (Elt F) → (⟨S129x64, .f32⟩ : BufTy).Contents (Elt F) → (⟨S400000x64, .f32⟩ : BufTy).Contents (Elt F))
  :: StableHlo.unary main_arg10 main_v95 (broadcastInDim S1x64 ![1] bcast_S64_S1x64_1 : (⟨S64, .f32⟩ : BufTy).Contents (Elt F) → (⟨S1x64, .f32⟩ : BufTy).Contents (Elt F))
  :: StableHlo.unary main_v95 main_v96 (broadcastInDim S400000x64 ![0, 1] bcast_S1x64_S400000x64_0_1 : (⟨S1x64, .f32⟩ : BufTy).Contents (Elt F) → (⟨S400000x64, .f32⟩ : BufTy).Contents (Elt F))
  :: StableHlo.binary main_v94 main_v96 main_v97 (addf : (⟨S400000x64, .f32⟩ : BufTy).Contents (Elt F) → (⟨S400000x64, .f32⟩ : BufTy).Contents (Elt F) → (⟨S400000x64, .f32⟩ : BufTy).Contents (Elt F))
  :: StableHlo.TRef.nullary main_call4.cst (constant S_ .f32 0x00000000#32)
  :: StableHlo.TRef.unary main_call4.cst main_call4.v0 (broadcastInDim S400000x64 ![] bcast_S_S400000x64)
  :: StableHlo.TRef.binary (.of main_v97 : StableHlo.TRef sig ⟨S400000x64, .f32⟩) main_call4.v0 main_call4.v1 (cmpf .ogt)
  :: StableHlo.TRef.nullary main_call4.cst_0 (constant S_ .f32 0x00000000#32)
  :: StableHlo.TRef.unary main_call4.cst_0 main_call4.v2 (broadcastInDim S400000x64 ![] bcast_S_S400000x64)
  :: StableHlo.TRef.binary (.of main_v97 : StableHlo.TRef sig ⟨S400000x64, .f32⟩) main_call4.v2 main_call4.v3 (cmpf .ogt)
  :: StableHlo.TRef.nullary main_call4.cst_1 (constant S_ .f32 0x00000000#32)
  :: StableHlo.TRef.unary main_call4.cst_1 main_call4.call0.v0 id
  :: StableHlo.TRef.unary main_call4.call0.v0 main_call4.call0.v1 (broadcastInDim S400000x64 ![] bcast_S_S400000x64)
  :: StableHlo.TRef.ternary main_call4.v3 main_call4.call0.v1 (.of main_v97 : StableHlo.TRef sig ⟨S400000x64, .f32⟩) main_call4.call0.v2 select
  :: StableHlo.TRef.unary main_call4.call0.v2 main_call4.v5 Host.expm1
  :: StableHlo.TRef.nullary main_call4.cst_2 (constant S_ .f32 0x3F800000#32)
  :: StableHlo.TRef.unary main_call4.cst_2 main_call4.v6 (broadcastInDim S400000x64 ![] bcast_S_S400000x64)
  :: StableHlo.TRef.binary main_call4.v6 main_call4.v5 main_call4.v7 mulf
  :: StableHlo.TRef.ternary main_call4.v1 (.of main_v97 : StableHlo.TRef sig ⟨S400000x64, .f32⟩) main_call4.v7 main_call4.call1.v0 select
  :: StableHlo.binary main_v98 main_arg11 main_v99 ((fun l r => Host.dotGeneral dot_S400000x64_S64x1_S400000x1_1_0_0_1_n_n none l r) : (⟨S400000x64, .f32⟩ : BufTy).Contents (Elt F) → (⟨S64x1, .f32⟩ : BufTy).Contents (Elt F) → (⟨S400000x1, .f32⟩ : BufTy).Contents (Elt F))
  :: StableHlo.reshape main_v99 main_v100 rfl shapeCasts_S400000x1_S400000
  :: StableHlo.unary main_arg4 main_v101 (broadcastInDim S400000x1 ![0] bcast_S400000_S400000x1_0 : (⟨S400000, .f32⟩ : BufTy).Contents (Elt F) → (⟨S400000x1, .f32⟩ : BufTy).Contents (Elt F))
  :: StableHlo.nary ![main_v90, main_v91, main_v101] main_v102 (fun u => concatenate S400000x129 1 [⟨S400000x64, u 0⟩, ⟨S400000x64, u 1⟩, ⟨S400000x1, u 2⟩] concatenates_S400000x64_S400000x64_S400000x1_S400000x129_d1)
  :: StableHlo.binary main_v102 main_arg9 main_v103 ((fun l r => Host.dotGeneral dot_S400000x129_S129x64_S400000x64_1_0_0_1_n_n none l r) : (⟨S400000x129, .f32⟩ : BufTy).Contents (Elt F) → (⟨S129x64, .f32⟩ : BufTy).Contents (Elt F) → (⟨S400000x64, .f32⟩ : BufTy).Contents (Elt F))
  :: StableHlo.unary main_arg10 main_v104 (broadcastInDim S1x64 ![1] bcast_S64_S1x64_1 : (⟨S64, .f32⟩ : BufTy).Contents (Elt F) → (⟨S1x64, .f32⟩ : BufTy).Contents (Elt F))
  :: StableHlo.unary main_v104 main_v105 (broadcastInDim S400000x64 ![0, 1] bcast_S1x64_S400000x64_0_1 : (⟨S1x64, .f32⟩ : BufTy).Contents (Elt F) → (⟨S400000x64, .f32⟩ : BufTy).Contents (Elt F))
  :: StableHlo.binary main_v103 main_v105 main_v106 (addf : (⟨S400000x64, .f32⟩ : BufTy).Contents (Elt F) → (⟨S400000x64, .f32⟩ : BufTy).Contents (Elt F) → (⟨S400000x64, .f32⟩ : BufTy).Contents (Elt F))
  :: StableHlo.TRef.nullary main_call5.cst (constant S_ .f32 0x00000000#32)
  :: StableHlo.TRef.unary main_call5.cst main_call5.v0 (broadcastInDim S400000x64 ![] bcast_S_S400000x64)
  :: StableHlo.TRef.binary (.of main_v106 : StableHlo.TRef sig ⟨S400000x64, .f32⟩) main_call5.v0 main_call5.v1 (cmpf .ogt)
  :: StableHlo.TRef.nullary main_call5.cst_0 (constant S_ .f32 0x00000000#32)
  :: StableHlo.TRef.unary main_call5.cst_0 main_call5.v2 (broadcastInDim S400000x64 ![] bcast_S_S400000x64)
  :: StableHlo.TRef.binary (.of main_v106 : StableHlo.TRef sig ⟨S400000x64, .f32⟩) main_call5.v2 main_call5.v3 (cmpf .ogt)
  :: StableHlo.TRef.nullary main_call5.cst_1 (constant S_ .f32 0x00000000#32)
  :: StableHlo.TRef.unary main_call5.cst_1 main_call5.call0.v0 id
  :: StableHlo.TRef.unary main_call5.call0.v0 main_call5.call0.v1 (broadcastInDim S400000x64 ![] bcast_S_S400000x64)
  :: StableHlo.TRef.ternary main_call5.v3 main_call5.call0.v1 (.of main_v106 : StableHlo.TRef sig ⟨S400000x64, .f32⟩) main_call5.call0.v2 select
  :: [] )

set_option maxHeartbeats 40000000 in
/-- Operations 161 … 167 of 167 of the reference's @main, calls inlined, in order. -/
abbrev ops4 : List (HloOp τ sig (Elt F)) :=
  ( StableHlo.TRef.unary main_call5.call0.v2 main_call5.v5 Host.expm1
  :: StableHlo.TRef.nullary main_call5.cst_2 (constant S_ .f32 0x3F800000#32)
  :: StableHlo.TRef.unary main_call5.cst_2 main_call5.v6 (broadcastInDim S400000x64 ![] bcast_S_S400000x64)
  :: StableHlo.TRef.binary main_call5.v6 main_call5.v5 main_call5.v7 mulf
  :: StableHlo.TRef.ternary main_call5.v1 (.of main_v106 : StableHlo.TRef sig ⟨S400000x64, .f32⟩) main_call5.v7 main_call5.call1.v0 select
  :: StableHlo.binary main_v107 main_arg11 main_v108 ((fun l r => Host.dotGeneral dot_S400000x64_S64x1_S400000x1_1_0_0_1_n_n none l r) : (⟨S400000x64, .f32⟩ : BufTy).Contents (Elt F) → (⟨S64x1, .f32⟩ : BufTy).Contents (Elt F) → (⟨S400000x1, .f32⟩ : BufTy).Contents (Elt F))
  :: StableHlo.reshape main_v108 main_v109 rfl shapeCasts_S400000x1_S400000
  :: [] )

/-- All of them. -/
abbrev ops : List (HloOp τ sig (Elt F)) := ops0 ++ ops1 ++ ops2 ++ ops3 ++ ops4

end Cert.ReferenceIdeal.Hand

end
-- ==== Proof.Ref.Run.lean ====
-- The reference is a line of host operations: it runs, and no operation writes an argument.
import proofs.«400336_j15375982920184_3_alg».proof.Proof.Ref.Ops
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem main_eq (c : Dev nD) : main (F := F) c = seq ops := by
  chain_rfl

theorem not_mem_single {b y : Ref sig .tc} (hy : 17 ≤ y.idx.val) (hb : b.idx.val < 17) :
    Proc.devRef (τ := τ) .tc b ∉ ({Proc.devRef .tc y} : Finset (DevRef τ sig)) := fun h =>
  absurd (congrArg (fun r : Ref sig .tc => r.idx.val) (Proc.devRef_injective _ (Finset.mem_singleton.1 h)))
    (Nat.ne_of_lt (Nat.lt_of_lt_of_le hb hy))

structure Line (op : HloOp τ sig (Elt F)) : Prop where
  sub : op.bufs ⊆ tcRefs τ sig
  fresh : op.fresh = ∅
  high : ∀ b : Ref sig .tc, b.idx.val < 17 → Proc.devRef (τ := τ) .tc b ∉ op.writes

namespace Line

variable {x a b c y : Ref sig .tc}

theorem nullary (v : y.ty.Contents (Elt F)) (hy) (h17 : 17 ≤ y.idx.val := by decide) :
    Line (StableHlo.nullary (τ := τ) y v hy) :=
  ⟨nullary_bufs_sub .., rfl, fun _ hb => not_mem_single h17 hb⟩

theorem unary (f : x.ty.Contents (Elt F) → y.ty.Contents (Elt F)) (hx hy) (h17 : 17 ≤ y.idx.val := by decide) :
    Line (StableHlo.unary (τ := τ) x y f hx hy) :=
  ⟨unary_bufs_sub .., rfl, fun _ hb => not_mem_single h17 hb⟩

theorem binary (f : a.ty.Contents (Elt F) → b.ty.Contents (Elt F) → y.ty.Contents (Elt F)) (ha hb hy)
    (h17 : 17 ≤ y.idx.val := by decide) : Line (StableHlo.binary (τ := τ) a b y f ha hb hy) :=
  ⟨binary_bufs_sub .., rfl, fun _ hr => not_mem_single h17 hr⟩

theorem ternary (f : c.ty.Contents (Elt F) → a.ty.Contents (Elt F) → b.ty.Contents (Elt F) → y.ty.Contents (Elt F))
    (hc ha hb hy) (h17 : 17 ≤ y.idx.val := by decide) : Line (StableHlo.ternary (τ := τ) c a b y f hc ha hb hy) :=
  ⟨ternary_bufs_sub .., rfl, fun _ hr => not_mem_single h17 hr⟩

theorem nary {n : Nat} (xs : Fin n → Ref sig .tc) (f : ((k : Fin n) → (xs k).ty.Contents (Elt F)) → y.ty.Contents (Elt F))
    (hxs hy) (h17 : 17 ≤ y.idx.val := by decide) : Line (StableHlo.nary (τ := τ) xs y f hxs hy) :=
  ⟨nary_bufs_sub .., rfl, fun _ hr => not_mem_single h17 hr⟩

theorem reshape (he hn hx hy) (h17 : 17 ≤ y.idx.val := by decide) :
    Line (StableHlo.reshape (τ := τ) (Val := Elt F) x y he hn hx hy) :=
  ⟨reshape_bufs_sub .., rfl, fun _ hr => not_mem_single h17 hr⟩

end Line

theorem ops0_line : (ops0 : List (HloOp τ sig (Elt F))).Forall Line := by
  repeat' apply And.intro
  all_goals first
    | exact Line.unary .. | exact Line.binary .. | exact Line.nullary .. | exact Line.ternary ..
    | exact Line.nary .. | exact Line.reshape ..

theorem ops1_line : (ops1 : List (HloOp τ sig (Elt F))).Forall Line := by
  repeat' apply And.intro
  all_goals first
    | exact Line.unary .. | exact Line.binary .. | exact Line.nullary .. | exact Line.ternary ..
    | exact Line.nary .. | exact Line.reshape ..

theorem ops2_line : (ops2 : List (HloOp τ sig (Elt F))).Forall Line := by
  repeat' apply And.intro
  all_goals first
    | exact Line.unary .. | exact Line.binary .. | exact Line.nullary .. | exact Line.ternary ..
    | exact Line.nary .. | exact Line.reshape ..

theorem ops3_line : (ops3 : List (HloOp τ sig (Elt F))).Forall Line := by
  repeat' apply And.intro
  all_goals first
    | exact Line.unary .. | exact Line.binary .. | exact Line.nullary .. | exact Line.ternary ..
    | exact Line.nary .. | exact Line.reshape ..

theorem ops4_line : (ops4 : List (HloOp τ sig (Elt F))).Forall Line := by
  repeat' apply And.intro
  all_goals first
    | exact Line.unary .. | exact Line.binary .. | exact Line.nullary .. | exact Line.ternary ..
    | exact Line.nary .. | exact Line.reshape ..

theorem ops_line : (ops : List (HloOp τ sig (Elt F))).Forall Line :=
  List.forall_append.2 ⟨List.forall_append.2 ⟨List.forall_append.2 ⟨List.forall_append.2 ⟨ops0_line, ops1_line⟩,
    ops2_line⟩, ops3_line⟩, ops4_line⟩

theorem ops_sub : (ops : List (HloOp τ sig (Elt F))).Forall fun op => op.bufs ⊆ tcRefs τ sig :=
  ops_line.imp fun _ h => h.sub

theorem scopedRefs_eq : (Finset.univ.filter fun b : Ref sig .tc => b.isScoped) = ∅ := by decide
theorem scopedSems_eq : (Finset.univ.filter fun sm : SemLoc sig => sm.isScoped .tc) = ∅ := by decide

def R (m : (ℓ : Loc nD τ sig) → Buf (Elt F) ℓ) (c : Dev nD) : Valuation τ sig (Elt F) := after ops (launchContents m c)

theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = R m c (Proc.devRef .tc b) :=
  run_seq scopedRefs_eq scopedSems_eq defs main (fun _ => ops) main_eq (fun _ => ops_sub) m ρ
    (fun _ op hop => (List.forall_iff_forall_mem.1 ops_line op hop).fresh)

abbrev argList : List (Ref sig .tc) :=
  [main_arg0, main_arg1, main_arg2, main_arg3, main_arg4, main_arg5, main_arg6, main_arg7, main_arg8, main_arg9, main_arg10,
   main_arg11, main_arg12, main_arg13, main_arg14, main_arg15, main_arg16]

theorem arg_low : ∀ b ∈ argList, b.idx.val < 17 := by decide

theorem R_arg (m : (ℓ : Loc nD τ sig) → Buf (Elt F) ℓ) (c : Dev nD) (b : Ref sig .tc) (hb : b ∈ argList) :
    R m c (Proc.devRef .tc b) = m ((c.tc : Thread nD τ).loc b) :=
  after_of_forall_not_mem ops (launchContents m c) fun op hop =>
    (List.forall_iff_forall_mem.1 ops_line op hop).high b (arg_low b hb)

end Cert.ReferenceIdeal.Hand

end
-- ==== Proof.Spec.lean ====
-- The encoder relu(x·W + b) and the decoder Σ_j elu(h_j)·W2[j] as plain formulas over extended reals.
import Idealize.ShloMosaic.PureOps.Ideal
import Idealize.ShloMosaic.Lib.ValueIdx

open scoped BigOperators

noncomputable section

namespace Cert.Spec

open Idealize.ShloMosaic Idealize.ShloMosaic.ValueIdx

abbrev Arr (a b : Nat) : Type := (⟨2, ![a, b]⟩ : Shape).Idx → EReal

def encAt (x : Arr 50000 128) (w : Arr 128 64) (b : Arr 1 64) (r : Fin 50000) (j : Fin 64) : EReal :=
  max ((∑ k : Fin 128, x (ix2 r k) * w (ix2 k j)) + b (ix2 0 j)) (Ideal.ofBits .f32 0x00000000#32)

def hidAt (u z : Arr 200000 64) (t : EReal) (w1a w1b : Arr 64 64) (w1t b1 : Arr 1 64) (r : Fin 200000) (j : Fin 64) : EReal :=
  (((∑ k : Fin 64, u (ix2 r k) * w1a (ix2 k j)) + (∑ k : Fin 64, z (ix2 r k) * w1b (ix2 k j))) + t * w1t (ix2 0 j)) + b1 (ix2 0 j)

def elu (x : EReal) : EReal :=
  Scalar.select (Ideal.cmp .ogt x (Ideal.ofBits .f32 0x00000000#32)) x (Ideal.exp x - Ideal.ofBits .f32 0x3F800000#32)

def decAt (u z : Arr 200000 64) (t : EReal) (w1a w1b : Arr 64 64) (w1t b1 : Arr 1 64) (w2 : Arr 64 1) (r : Fin 200000) : EReal :=
  ∑ j : Fin 64, elu (hidAt u z t w1a w1b w1t b1 r j) * w2 (ix2 j 0)

end Cert.Spec

end
-- ==== Proof.Bridge.Agree.lean ====
-- The hypothesis that the two launch memories agree on the seventeen arguments, and names for the two runs' final buffers.
import proofs.«400336_j15375982920184_3_alg».proof.Proof.KI.Run
import proofs.«400336_j15375982920184_3_alg».proof.Proof.Ref.Run
import proofs.«400336_j15375982920184_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

open scoped BigOperators

noncomputable section

namespace Cert.Bridge

open Idealize.ShloMosaic Idealize.ShloMosaic.TcCoe Idealize.ShloMosaic.ValueIdx Idealize.SL.Sem

abbrev Arr1 (a : Nat) : Type := (⟨1, ![a]⟩ : Shape).Idx → EReal

-- A buffer's location on device c, in the kernel program's memory and in the reference's.
abbrev kloc (c : Dev Cert.KernelIdeal.nD) (b : Ref Cert.KernelIdeal.sig .tc) := (c.tc : Thread Cert.KernelIdeal.nD Cert.KernelIdeal.τ).loc b
abbrev rloc (c : Dev Cert.ReferenceIdeal.nD) (b : Ref Cert.ReferenceIdeal.sig .tc) := (c.tc : Thread Cert.ReferenceIdeal.nD Cert.ReferenceIdeal.τ).loc b

-- The reference's memory agrees with the kernel program's on every argument array, on every device.
structure Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop where
  a0 : ∀ c, m' (rloc c Cert.ReferenceIdeal.main_arg0) = m (kloc c Cert.KernelIdeal.main_arg0)
  a1 : ∀ c, m' (rloc c Cert.ReferenceIdeal.main_arg1) = m (kloc c Cert.KernelIdeal.main_arg1)
  a2 : ∀ c, m' (rloc c Cert.ReferenceIdeal.main_arg2) = m (kloc c Cert.KernelIdeal.main_arg2)
  a3 : ∀ c, m' (rloc c Cert.ReferenceIdeal.main_arg3) = m (kloc c Cert.KernelIdeal.main_arg3)
  a4 : ∀ c, m' (rloc c Cert.ReferenceIdeal.main_arg4) = m (kloc c Cert.KernelIdeal.main_arg4)
  a5 : ∀ c, m' (rloc c Cert.ReferenceIdeal.main_arg5) = m (kloc c Cert.KernelIdeal.main_arg5)
  a6 : ∀ c, m' (rloc c Cert.ReferenceIdeal.main_arg6) = m (kloc c Cert.KernelIdeal.main_arg6)
  a7 : ∀ c, m' (rloc c Cert.ReferenceIdeal.main_arg7) = m (kloc c Cert.KernelIdeal.main_arg7)
  a8 : ∀ c, m' (rloc c Cert.ReferenceIdeal.main_arg8) = m (kloc c Cert.KernelIdeal.main_arg8)
  a9 : ∀ c, m' (rloc c Cert.ReferenceIdeal.main_arg9) = m (kloc c Cert.KernelIdeal.main_arg9)
  a10 : ∀ c, m' (rloc c Cert.ReferenceIdeal.main_arg10) = m (kloc c Cert.KernelIdeal.main_arg10)
  a11 : ∀ c, m' (rloc c Cert.ReferenceIdeal.main_arg11) = m (kloc c Cert.KernelIdeal.main_arg11)
  a12 : ∀ c, m' (rloc c Cert.ReferenceIdeal.main_arg12) = m (kloc c Cert.KernelIdeal.main_arg12)
  a13 : ∀ c, m' (rloc c Cert.ReferenceIdeal.main_arg13) = m (kloc c Cert.KernelIdeal.main_arg13)
  a14 : ∀ c, m' (rloc c Cert.ReferenceIdeal.main_arg14) = m (kloc c Cert.KernelIdeal.main_arg14)
  a15 : ∀ c, m' (rloc c Cert.ReferenceIdeal.main_arg15) = m (kloc c Cert.KernelIdeal.main_arg15)
  a16 : ∀ c, m' (rloc c Cert.ReferenceIdeal.main_arg16) = m (kloc c Cert.KernelIdeal.main_arg16)

abbrev kv (m : (ℓ : Loc Cert.KernelIdeal.nD Cert.KernelIdeal.τ Cert.KernelIdeal.sig) → Buf (Elt Ideal) ℓ) (ρ : Dev Cert.KernelIdeal.nD → PrngReg) (c : Dev Cert.KernelIdeal.nD) (b : Ref Cert.KernelIdeal.sig .tc) :=
  Cert.KernelIdeal.Hand.W12 (F := Ideal) m ρ c (Proc.devRef .tc b)
abbrev rv (m' : (ℓ : Loc Cert.ReferenceIdeal.nD Cert.ReferenceIdeal.τ Cert.ReferenceIdeal.sig) → Buf (Elt Ideal) ℓ) (c : Dev Cert.ReferenceIdeal.nD) (b : Ref Cert.ReferenceIdeal.sig .tc) :=
  Cert.ReferenceIdeal.Hand.R (F := Ideal) m' c (Proc.devRef .tc b)

section Walk
open Cert.KernelIdeal Cert.KernelIdeal.Hand

variable (m : (ℓ : Loc nD τ sig) → Buf (Elt Ideal) ℓ) (ρ : Dev nD → PrngReg)

-- A buffer that nothing writes after a boundary of the run ends as it stood there.
theorem kv_W10 (c : Dev nD) (b : Ref sig .tc) (h8 : b ∉ hW 8) (h89 : b ≠ main_v89) :
    kv m ρ c b = W10 (F := Ideal) m ρ c (Proc.devRef .tc b) :=
  (hskip 8 _ b h8).trans (W11_keep m ρ c b h89)
theorem kv_W9 (c : Dev nD) (b : Ref sig .tc) (h8 : b ∉ hW 8) (h89 : b ≠ main_v89) (h7 : b ∉ hW 7) :
    kv m ρ c b = W9 (F := Ideal) m ρ c (Proc.devRef .tc b) :=
  (kv_W10 m ρ c b h8 h89).trans (hskip 7 _ b h7)
theorem kv_W8 (c : Dev nD) (b : Ref sig .tc) (h8 : b ∉ hW 8) (h89 : b ≠ main_v89) (h7 : b ∉ hW 7) (h6 : b ∉ hW 6) :
    kv m ρ c b = W8 (F := Ideal) m ρ c (Proc.devRef .tc b) :=
  (kv_W9 m ρ c b h8 h89 h7).trans (hskip 6 _ b h6)
theorem kv_W4 (c : Dev nD) (b : Ref sig .tc) (h8 : b ∉ hW 8) (h89 : b ≠ main_v89) (h7 : b ∉ hW 7) (h6 : b ∉ hW 6)
    (h5 : b ∉ hW 5) (h4 : b ∉ hW 4) (h3 : b ∉ hW 3) (h2 : b ∉ hW 2) :
    kv m ρ c b = W4 (F := Ideal) m ρ c (Proc.devRef .tc b) :=
  (kv_W8 m ρ c b h8 h89 h7 h6).trans <| (hskip 5 _ b h5).trans <| (hskip 4 _ b h4).trans <| (hskip 3 _ b h3).trans (hskip 2 _ b h2)
-- An argument stands as launched at the boundary before the last kernel region's host stretch.
theorem W9_arg (c : Dev nD) (b : Ref sig .tc) (hb : b ∈ argList) :
    W9 (F := Ideal) m ρ c (Proc.devRef .tc b) = m ((c.tc : Thread nD τ).loc b) :=
  ((hkeep 7 _ b hb).symm.trans <| (W11_keep m ρ c b ((by decide : ∀ b ∈ argList, b ≠ main_v89) b hb)).symm.trans
    (hkeep 8 _ b hb).symm).trans (W12_arg m ρ c b hb)

end Walk

end Cert.Bridge

end
-- ==== Proof.KI.Val0.lean ====
-- What region 0 leaves: entry (r, j) of its output is max(Σ_k x[r,k]·w[k,j] + b[j], 0); ten blocks tile the rows.
import proofs.«400336_j15375982920184_3_alg».proof.Proof.KI.Region0
import proofs.«400336_j15375982920184_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember

set_option maxRecDepth 16384

open scoped BigOperators

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

section

-- The product into the zero accumulator, at row p and column q: the row of the left block against the column of the right one.
theorem encDot0 (xa : FVec Ideal S5000x128 .f32) (xw : FVec Ideal S128x64 .f32) (p : Fin 5000) (q : Fin 64) :
    matmul dot_S5000x128_S128x64_S5000x64_1_0_0_1_n_n none xa xw (constant (F := Ideal) S5000x64 .f32 0x00000000#32) (ix2 p q)
      = ∑ k : Fin 128, xa (ix2 p k) * xw (ix2 k q) :=
  (congrFun (matmul_zero_eq_dotGeneral _ none xa xw) (ix2 p q)).trans
    (StackMember.dotGeneral_plain_apply (m := 5000) (k := 128) (n := 64) none xa xw p q)

theorem encBias0 (xb : Vec Ideal S1x64 .f32) (p : Fin 5000) (q : Fin 64) :
    broadcastTo S5000x64 (shapeCast S1x64 xb shapeCasts_S1x64_S1x64) broadcasts_S1x64_S5000x64 (ix2 p q) = xb (ix2 0 q) := by
  rw [shapeCast_self]
  exact broadcastTo_1b_ab_apply xb broadcasts_S1x64_S5000x64 p q

theorem encPay0 (xa : Vec Ideal S5000x128 .f32) (xw : Vec Ideal S128x64 .f32) (xb : Vec Ideal S1x64 .f32) (p : Fin 5000) (q : Fin 64) :
    k0_pay1 xa xw xb (ix2 p q)
      = max ((∑ k : Fin 128, xa (ix2 p k) * xw (ix2 k q)) + xb (ix2 0 q)) (Ideal.ofBits .f32 0x00000000#32) := by
  unfold k0_pay1
  rw [maximumf_apply, addf_apply, broadcast_apply, encDot0, encBias0]
  rfl

variable (V : (c : Dev nD) → (b : Ref sig .tc) → Buf (Elt Ideal) ((c : Thread nD τ).loc b))

theorem offsZero0 : (![0, 0] : Fin 2 → Nat) = fun _ => 0 := funext fun a => by fin_cases a <;> rfl

theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem featBlk0 (c : Dev nD) (t : Fin cfg0.N) (x : S5000x128.Idx) (k : S50000x128.Idx)
    (hrow : (k 0).val = t.val * 5000 + (x 0).val) (hcol : (k 1).val = (x 1).val) :
    (iblk0 V c 0 t : Vec Ideal S5000x128 .f32) x = (V c main_arg0 : Cert.Spec.Arr 50000 128) k := by
  obtain ⟨ea, eb, -⟩ := blockIdx0 t
  unfold iblk0
  rw [View.read_apply]
  show V c main_arg0 _ = V c main_arg0 _
  congr 1
  funext a; apply Fin.ext
  match a with
  | ⟨0, _⟩ => show win0_0.index t (0 : Fin 2) * 5000 + 1 * (x 0).val = (k 0).val; rw [ea, hrow]; omega
  | ⟨1, _⟩ => show win0_0.index t (1 : Fin 2) * 128 + 1 * (x 1).val = (k 1).val; rw [eb, hcol]; omega

theorem wgtBlk0 (c : Dev nD) (t : Fin cfg0.N) (x : S128x64.Idx) :
    (iblk0 V c 1 t : Vec Ideal S128x64 .f32) x = (V c main_arg5 : Cert.Spec.Arr 128 64) x := by
  obtain ⟨-, -, ea, eb, -⟩ := blockIdx0 t
  unfold iblk0
  rw [View.read_apply]
  show V c main_arg5 _ = V c main_arg5 _
  congr 1
  funext a; apply Fin.ext
  match a with
  | ⟨0, _⟩ => show win0_1.index t (0 : Fin 2) * 128 + 1 * (x 0).val = (x 0).val; rw [ea]; omega
  | ⟨1, _⟩ => show win0_1.index t (1 : Fin 2) * 64 + 1 * (x 1).val = (x 1).val; rw [eb]; omega

theorem biasBlk0 (c : Dev nD) (t : Fin cfg0.N) (x : S1x64.Idx) :
    (iblk0 V c 2 t : Vec Ideal S1x64 .f32) x = (V c main_v0 : Cert.Spec.Arr 1 64) x := by
  obtain ⟨-, -, -, -, ea, eb, -⟩ := blockIdx0 t
  unfold iblk0
  rw [View.read_apply]
  show V c main_v0 _ = V c main_v0 _
  congr 1
  funext a; apply Fin.ext
  match a with
  | ⟨0, _⟩ => show win0_2.index t (0 : Fin 2) * 1 + 1 * (x 0).val = (x 0).val; rw [ea]; omega
  | ⟨1, _⟩ => show win0_2.index t (1 : Fin 2) * 64 + 1 * (x 1).val = (x 1).val; rw [eb]; omega

def encArr0 (c : Dev nD) : S50000x64.Idx → EReal :=
  fun i => Cert.Spec.encAt (V c main_arg0) (V c main_arg5) (V c main_v0) (i 0) (i 1)

theorem encPoint0 (c : Dev nD) (t : Fin cfg0.N) (y : S5000x64.Idx) (i : S50000x64.Idx)
    (hrow : (i 0).val = t.val * 5000 + (y 0).val) (hcol : (i 1).val = (y 1).val) :
    k0_pay1 (iblk0 V c 0 t) (iblk0 V c 1 t) (iblk0 V c 2 t) y = encArr0 V c i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : s = q := Fin.ext hcol
  refine (encPay0 _ _ _ p s).trans ?_
  show _ = Cert.Spec.encAt (V c main_arg0) (V c main_arg5) (V c main_v0) r s
  unfold Cert.Spec.encAt
  refine congrArg₂ max (congrArg₂ (· + ·) (Finset.sum_congr rfl fun k _ => congrArg₂ (· * ·) ?_ ?_) ?_) rfl
  · exact featBlk0 V c t (ix2 p k) (ix2 r k) hrow rfl
  · exact wgtBlk0 V c t (ix2 k s)
  · exact biasBlk0 V c t (ix2 0 s)

theorem encFlushed0 (c : Dev nD) (t : Fin cfg0.N) :
    (dat0 (F := Ideal) V c).flushed 3 t = ((cfg0.win 3).blk t).view.read (Elt Ideal) (encArr0 V c) := by
  show (cfg0.win 3).cut (grid0.coords t) ((dat0 (F := Ideal) V c).after 3 t) = _
  rw [after0_3]
  unfold out0_3
  rw [View.canon_unit_zero offsZero0]
  simp only [View.ld_unit_zero (S := S5000x128) offsZero0, View.ld_unit_zero (S := S128x64) offsZero0,
    View.ld_unit_zero (S := S1x64) offsZero0]
  obtain ⟨-, -, -, -, -, -, eo, ep⟩ := blockIdx0 t
  funext y
  refine encPoint0 V c t _ _ ?_ ?_
  · show win0_3.index t (0 : Fin 2) * 5000 + 1 * (y 0).val = t.val * 5000 + (y 0).val
    rw [eo]; omega
  · show win0_3.index t (1 : Fin 2) * 64 + 1 * (y 1).val = (y 1).val
    rw [ep]; omega

theorem memBlk0 (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v1).slice (win0_3.rect t)).set ↔ _
  rw [View.set_slice_whole, Rect.mem_set_unit]
  exact Iff.rfl

theorem encCover0 (i : S50000x64.Idx) :
    ∃ t : Fin cfg0.N, (cfg0.win 3).flush t = true ∧ i ∈ ((cfg0.win 3).blk t).view.set := by
  have hi : (i 0).val < 50000 := (i 0).isLt
  have hj : (i 1).val < 64 := (i 1).isLt
  have hN : cfg0.N = 10 := by decide
  refine ⟨⟨(i 0).val / 5000, by rw [hN]; omega⟩, flush0_3 _, ?_⟩
  rw [memBlk0]
  obtain ⟨-, -, -, -, -, -, eo, ep⟩ := blockIdx0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [eo]
    show (i 0).val / 5000 * 5000 ≤ (i 0).val ∧ (i 0).val < (i 0).val / 5000 * 5000 + 5000
    omega
  | ⟨1, _⟩ =>
    show win0_3.index _ (1 : Fin 2) * 64 ≤ (i 1).val ∧ (i 1).val < win0_3.index _ (1 : Fin 2) * 64 + 64
    rw [ep]; omega

theorem encFinal0 (c : Dev nD) : (dat0 (F := Ideal) V c).arrAt 3 cfg0.N = encArr0 V c :=
  (dat0 (F := Ideal) V c).arrAt_eq_of_cover 3 (encArr0 V c) (fun t _ => encFlushed0 V c t) encCover0

end

theorem val0 (V : (c : Dev nD) → (b : Ref sig .tc) → Buf (Elt Ideal) ((c : Thread nD τ).loc b)) (c : Dev nD) (r : Fin 50000) (j : Fin 64) :
    (dat0 (F := Ideal) V c).arrAt 3 cfg0.N (ix2 r j) = Cert.Spec.encAt (V c main_arg0) (V c main_arg5) (V c main_v0) r j :=
  congrFun (encFinal0 V c) (ix2 r j)

end Cert.KernelIdeal.Hand

end
-- ==== Proof.KI.Val1.lean ====
-- What region 1 leaves: entry (r, j) of its output is max(Σ_k x[r,k]·w[k,j] + b[j], 0); ten blocks tile the rows.
import proofs.«400336_j15375982920184_3_alg».proof.Proof.KI.Region1
import proofs.«400336_j15375982920184_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember

set_option maxRecDepth 16384

open scoped BigOperators

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

section

-- The product into the zero accumulator, at row p and column q: the row of the left block against the column of the right one.
theorem encDot1 (xa : FVec Ideal S5000x128 .f32) (xw : FVec Ideal S128x64 .f32) (p : Fin 5000) (q : Fin 64) :
    matmul dot_S5000x128_S128x64_S5000x64_1_0_0_1_n_n none xa xw (constant (F := Ideal) S5000x64 .f32 0x00000000#32) (ix2 p q)
      = ∑ k : Fin 128, xa (ix2 p k) * xw (ix2 k q) :=
  (congrFun (matmul_zero_eq_dotGeneral _ none xa xw) (ix2 p q)).trans
    (StackMember.dotGeneral_plain_apply (m := 5000) (k := 128) (n := 64) none xa xw p q)

theorem encBias1 (xb : Vec Ideal S1x64 .f32) (p : Fin 5000) (q : Fin 64) :
    broadcastTo S5000x64 (shapeCast S1x64 xb shapeCasts_S1x64_S1x64) broadcasts_S1x64_S5000x64 (ix2 p q) = xb (ix2 0 q) := by
  rw [shapeCast_self]
  exact broadcastTo_1b_ab_apply xb broadcasts_S1x64_S5000x64 p q

theorem encPay1 (xa : Vec Ideal S5000x128 .f32) (xw : Vec Ideal S128x64 .f32) (xb : Vec Ideal S1x64 .f32) (p : Fin 5000) (q : Fin 64) :
    k1_pay1 xa xw xb (ix2 p q)
      = max ((∑ k : Fin 128, xa (ix2 p k) * xw (ix2 k q)) + xb (ix2 0 q)) (Ideal.ofBits .f32 0x00000000#32) := by
  unfold k1_pay1
  rw [maximumf_apply, addf_apply, broadcast_apply, encDot1, encBias1]
  rfl

variable (V : (c : Dev nD) → (b : Ref sig .tc) → Buf (Elt Ideal) ((c : Thread nD τ).loc b))

theorem offsZero1 : (![0, 0] : Fin 2 → Nat) = fun _ => 0 := funext fun a => by fin_cases a <;> rfl

theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem featBlk1 (c : Dev nD) (t : Fin cfg1.N) (x : S5000x128.Idx) (k : S50000x128.Idx)
    (hrow : (k 0).val = t.val * 5000 + (x 0).val) (hcol : (k 1).val = (x 1).val) :
    (iblk1 V c 0 t : Vec Ideal S5000x128 .f32) x = (V c main_arg1 : Cert.Spec.Arr 50000 128) k := by
  obtain ⟨ea, eb, -⟩ := blockIdx1 t
  unfold iblk1
  rw [View.read_apply]
  show V c main_arg1 _ = V c main_arg1 _
  congr 1
  funext a; apply Fin.ext
  match a with
  | ⟨0, _⟩ => show win1_0.index t (0 : Fin 2) * 5000 + 1 * (x 0).val = (k 0).val; rw [ea, hrow]; omega
  | ⟨1, _⟩ => show win1_0.index t (1 : Fin 2) * 128 + 1 * (x 1).val = (k 1).val; rw [eb, hcol]; omega

theorem wgtBlk1 (c : Dev nD) (t : Fin cfg1.N) (x : S128x64.Idx) :
    (iblk1 V c 1 t : Vec Ideal S128x64 .f32) x = (V c main_arg7 : Cert.Spec.Arr 128 64) x := by
  obtain ⟨-, -, ea, eb, -⟩ := blockIdx1 t
  unfold iblk1
  rw [View.read_apply]
  show V c main_arg7 _ = V c main_arg7 _
  congr 1
  funext a; apply Fin.ext
  match a with
  | ⟨0, _⟩ => show win1_1.index t (0 : Fin 2) * 128 + 1 * (x 0).val = (x 0).val; rw [ea]; omega
  | ⟨1, _⟩ => show win1_1.index t (1 : Fin 2) * 64 + 1 * (x 1).val = (x 1).val; rw [eb]; omega

theorem biasBlk1 (c : Dev nD) (t : Fin cfg1.N) (x : S1x64.Idx) :
    (iblk1 V c 2 t : Vec Ideal S1x64 .f32) x = (V c main_v2 : Cert.Spec.Arr 1 64) x := by
  obtain ⟨-, -, -, -, ea, eb, -⟩ := blockIdx1 t
  unfold iblk1
  rw [View.read_apply]
  show V c main_v2 _ = V c main_v2 _
  congr 1
  funext a; apply Fin.ext
  match a with
  | ⟨0, _⟩ => show win1_2.index t (0 : Fin 2) * 1 + 1 * (x 0).val = (x 0).val; rw [ea]; omega
  | ⟨1, _⟩ => show win1_2.index t (1 : Fin 2) * 64 + 1 * (x 1).val = (x 1).val; rw [eb]; omega

def encArr1 (c : Dev nD) : S50000x64.Idx → EReal :=
  fun i => Cert.Spec.encAt (V c main_arg1) (V c main_arg7) (V c main_v2) (i 0) (i 1)

theorem encPoint1 (c : Dev nD) (t : Fin cfg1.N) (y : S5000x64.Idx) (i : S50000x64.Idx)
    (hrow : (i 0).val = t.val * 5000 + (y 0).val) (hcol : (i 1).val = (y 1).val) :
    k1_pay1 (iblk1 V c 0 t) (iblk1 V c 1 t) (iblk1 V c 2 t) y = encArr1 V c i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : s = q := Fin.ext hcol
  refine (encPay1 _ _ _ p s).trans ?_
  show _ = Cert.Spec.encAt (V c main_arg1) (V c main_arg7) (V c main_v2) r s
  unfold Cert.Spec.encAt
  refine congrArg₂ max (congrArg₂ (· + ·) (Finset.sum_congr rfl fun k _ => congrArg₂ (· * ·) ?_ ?_) ?_) rfl
  · exact featBlk1 V c t (ix2 p k) (ix2 r k) hrow rfl
  · exact wgtBlk1 V c t (ix2 k s)
  · exact biasBlk1 V c t (ix2 0 s)

theorem encFlushed1 (c : Dev nD) (t : Fin cfg1.N) :
    (dat1 (F := Ideal) V c).flushed 3 t = ((cfg1.win 3).blk t).view.read (Elt Ideal) (encArr1 V c) := by
  show (cfg1.win 3).cut (grid1.coords t) ((dat1 (F := Ideal) V c).after 3 t) = _
  rw [after1_3]
  unfold out1_3
  rw [View.canon_unit_zero offsZero1]
  simp only [View.ld_unit_zero (S := S5000x128) offsZero1, View.ld_unit_zero (S := S128x64) offsZero1,
    View.ld_unit_zero (S := S1x64) offsZero1]
  obtain ⟨-, -, -, -, -, -, eo, ep⟩ := blockIdx1 t
  funext y
  refine encPoint1 V c t _ _ ?_ ?_
  · show win1_3.index t (0 : Fin 2) * 5000 + 1 * (y 0).val = t.val * 5000 + (y 0).val
    rw [eo]; omega
  · show win1_3.index t (1 : Fin 2) * 64 + 1 * (y 1).val = (y 1).val
    rw [ep]; omega

theorem memBlk1 (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v3).slice (win1_3.rect t)).set ↔ _
  rw [View.set_slice_whole, Rect.mem_set_unit]
  exact Iff.rfl

theorem encCover1 (i : S50000x64.Idx) :
    ∃ t : Fin cfg1.N, (cfg1.win 3).flush t = true ∧ i ∈ ((cfg1.win 3).blk t).view.set := by
  have hi : (i 0).val < 50000 := (i 0).isLt
  have hj : (i 1).val < 64 := (i 1).isLt
  have hN : cfg1.N = 10 := by decide
  refine ⟨⟨(i 0).val / 5000, by rw [hN]; omega⟩, flush1_3 _, ?_⟩
  rw [memBlk1]
  obtain ⟨-, -, -, -, -, -, eo, ep⟩ := blockIdx1 ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [eo]
    show (i 0).val / 5000 * 5000 ≤ (i 0).val ∧ (i 0).val < (i 0).val / 5000 * 5000 + 5000
    omega
  | ⟨1, _⟩ =>
    show win1_3.index _ (1 : Fin 2) * 64 ≤ (i 1).val ∧ (i 1).val < win1_3.index _ (1 : Fin 2) * 64 + 64
    rw [ep]; omega

theorem encFinal1 (c : Dev nD) : (dat1 (F := Ideal) V c).arrAt 3 cfg1.N = encArr1 V c :=
  (dat1 (F := Ideal) V c).arrAt_eq_of_cover 3 (encArr1 V c) (fun t _ => encFlushed1 V c t) encCover1

end

theorem val1 (V : (c : Dev nD) → (b : Ref sig .tc) → Buf (Elt Ideal) ((c : Thread nD τ).loc b)) (c : Dev nD) (r : Fin 50000) (j : Fin 64) :
    (dat1 (F := Ideal) V c).arrAt 3 cfg1.N (ix2 r j) = Cert.Spec.encAt (V c main_arg1) (V c main_arg7) (V c main_v2) r j :=
  congrFun (encFinal1 V c) (ix2 r j)

end Cert.KernelIdeal.Hand

end
-- ==== Proof.Bridge.Enc.lean ====
-- The two encoders: relu(x·W + b) on both sides.
import proofs.«400336_j15375982920184_3_alg».proof.Proof.Bridge.Agree
import proofs.«400336_j15375982920184_3_alg».proof.Proof.KI.Val0
import proofs.«400336_j15375982920184_3_alg».proof.Proof.KI.Val1
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.StackMember

set_option maxRecDepth 16384

open scoped BigOperators

noncomputable section

namespace Cert.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

open Idealize.ShloMosaic.StackMember

namespace Enc

theorem refDot_plain :
    Cert.ReferenceIdeal.dot_S50000x128_S128x64_S50000x64_1_0_0_1_n_n = DotDims.plain 50000 128 64 := rfl

theorem bias_bcast (b : Arr1 64) (h1 : Cert.ReferenceIdeal.S64.BroadcastsInDim Cert.ReferenceIdeal.S1x64 ![1])
    (h2 : Cert.ReferenceIdeal.S1x64.BroadcastsInDim Cert.ReferenceIdeal.S50000x64 ![0, 1]) (r : Fin 50000) (j : Fin 64) :
    broadcastInDim Cert.ReferenceIdeal.S50000x64 ![0, 1] h2
      (broadcastInDim Cert.ReferenceIdeal.S1x64 ![1] h1 b) (ix2 r j) = b (ix1 j) := by
  rw [broadcastInDim_apply _ h2 _ (ix2 r j) (ix2 0 j) (fun a => by match a with | ⟨0, _⟩ => rfl | ⟨1, _⟩ => rfl),
    broadcastInDim_apply _ h1 _ (ix2 0 j) (ix1 j) (fun a => by match a with | ⟨0, _⟩ => rfl)]

theorem bias_reshape (b : Arr1 64) (h : Cert.KernelIdeal.S64.ShapeCasts Cert.KernelIdeal.S1x64) (j : Fin 64) :
    shapeCast Cert.KernelIdeal.S1x64 b h (ix2 0 j) = b (ix1 j) := by
  refine shapeCast_apply b h (ix2 0 j) (ix1 j) ?_
  rw [Shape.rowMajor_val_one, Shape.rowMajor_val_two]
  show j.val = 0 * 64 + j.val
  omega

theorem encRef_apply (x : Cert.Spec.Arr 50000 128) (w : Cert.Spec.Arr 128 64) (b : Arr1 64)
    (h1 : Cert.ReferenceIdeal.S64.BroadcastsInDim Cert.ReferenceIdeal.S1x64 ![1])
    (h2 : Cert.ReferenceIdeal.S1x64.BroadcastsInDim Cert.ReferenceIdeal.S50000x64 ![0, 1])
    (h3 : Cert.ReferenceIdeal.S_.BroadcastsInDim Cert.ReferenceIdeal.S50000x64 ![])
    (r : Fin 50000) (j : Fin 64) :
    maximumf (F := Ideal) (φ := .f32)
      (addf (Host.dotGeneral (F := Ideal) (φ₁ := .f32) (φ₂ := .f32) Cert.ReferenceIdeal.dot_S50000x128_S128x64_S50000x64_1_0_0_1_n_n none x w)
        (broadcastInDim Cert.ReferenceIdeal.S50000x64 ![0, 1] h2 (broadcastInDim Cert.ReferenceIdeal.S1x64 ![1] h1 b)))
      (broadcastInDim Cert.ReferenceIdeal.S50000x64 ![] h3 (constant (F := Ideal) Cert.ReferenceIdeal.S_ .f32 0x00000000#32)) (ix2 r j)
    = max ((∑ k : Fin 128, x (ix2 r k) * w (ix2 k j)) + b (ix1 j)) (Ideal.ofBits .f32 0x00000000#32) := by
  rw [maximumf_apply, addf_apply, bias_bcast, refDot_plain, dotGeneral_plain_apply,
    broadcastInDim_apply _ h3 _ (ix2 r j) ix0 (fun a => a.elim0), constant_apply]

section Ref
open Cert.ReferenceIdeal Cert.ReferenceIdeal.Hand

theorem rv17 (c : Dev nD) :
    (rv m' c main_v17 : Cert.Spec.Arr 50000 64) =
      maximumf (F := Ideal) (φ := .f32)
        (addf (Host.dotGeneral (F := Ideal) (φ₁ := .f32) (φ₂ := .f32) dot_S50000x128_S128x64_S50000x64_1_0_0_1_n_n none
            (m' ((c.tc : Thread nD τ).loc main_arg0)) (m' ((c.tc : Thread nD τ).loc main_arg5)))
          (broadcastInDim S50000x64 ![0, 1] Gen.bcast_S1x64_S50000x64_0_1
            (broadcastInDim S1x64 ![1] Gen.bcast_S64_S1x64_1 (m' ((c.tc : Thread nD τ).loc main_arg6)))))
        (broadcastInDim S50000x64 ![] Gen.bcast_S_S50000x64 (constant (F := Ideal) S_ .f32 0x00000000#32)) := by
  show StableHlo.after (ops (F := Ideal)) (StableHlo.launchContents m' c) (Proc.devRef .tc main_v17) = _
  simp only [ops, ops0, ops1, ops2, ops3, ops4, List.cons_append, List.nil_append]
  after_results_simp
  rfl

theorem rv22 (c : Dev nD) :
    (rv m' c main_v22 : Cert.Spec.Arr 50000 64) =
      maximumf (F := Ideal) (φ := .f32)
        (addf (Host.dotGeneral (F := Ideal) (φ₁ := .f32) (φ₂ := .f32) dot_S50000x128_S128x64_S50000x64_1_0_0_1_n_n none
            (m' ((c.tc : Thread nD τ).loc main_arg1)) (m' ((c.tc : Thread nD τ).loc main_arg7)))
          (broadcastInDim S50000x64 ![0, 1] Gen.bcast_S1x64_S50000x64_0_1
            (broadcastInDim S1x64 ![1] Gen.bcast_S64_S1x64_1 (m' ((c.tc : Thread nD τ).loc main_arg8)))))
        (broadcastInDim S50000x64 ![] Gen.bcast_S_S50000x64 (constant (F := Ideal) S_ .f32 0x00000000#32)) := by
  show StableHlo.after (ops (F := Ideal)) (StableHlo.launchContents m' c) (Proc.devRef .tc main_v22) = _
  simp only [ops, ops0, ops1, ops2, ops3, ops4, List.cons_append, List.nil_append]
  after_results_simp
  rfl

end Ref

section Ker
open Cert.KernelIdeal Cert.KernelIdeal.Gen Cert.KernelIdeal.Hand

theorem kv1 (c : Dev nD) : kv m ρ c main_v1 = (dat0 (F := Ideal) (V1 m ρ) c).arrAt 3 cfg0.N :=
  (kv_W4 m ρ c main_v1 (by decide) (by decide) (by decide) (by decide) (by decide) (by decide) (by decide) (by decide)).trans <|
    (W4_keep m ρ c main_v1 (by decide)).trans <| (hskip 1 _ main_v1 (by decide)).trans (W2_arr m ρ c 3)
theorem kv3 (c : Dev nD) : kv m ρ c main_v3 = (dat1 (F := Ideal) (V3 m ρ) c).arrAt 3 cfg1.N :=
  (kv_W4 m ρ c main_v3 (by decide) (by decide) (by decide) (by decide) (by decide) (by decide) (by decide) (by decide)).trans (W4_arr m ρ c 3)

theorem V1_arg (c : Dev nD) (b : Ref sig .tc) (hb : b ∈ argList) :
    V1 (F := Ideal) m ρ c b = m ((c.tc : Thread nD τ).loc b) :=
  (hkeep 0 (W0 m ρ c) b hb).trans rfl

theorem V1_v0 (c : Dev nD) :
    (V1 (F := Ideal) m ρ c main_v0 : Cert.Spec.Arr 1 64)
      = shapeCast S1x64 (m ((c.tc : Thread nD τ).loc main_arg6) : Arr1 64) Gen.shapeCasts_S64_S1x64 := by
  show StableHlo.after (main_part0_ops0 (F := Ideal)) (W0 m ρ c) (Proc.devRef .tc main_v0) = _
  after_results
  rfl

theorem V3_arg (c : Dev nD) (b : Ref sig .tc) (hb : b ∈ argList) :
    V3 (F := Ideal) m ρ c b = m ((c.tc : Thread nD τ).loc b) :=
  calc V3 (F := Ideal) m ρ c b
    _ = W2 (F := Ideal) m ρ c (Proc.devRef .tc b) := hkeep 1 _ b hb
    _ = W1 (F := Ideal) m ρ c (Proc.devRef .tc b) := W2_keep m ρ c b ((by decide : ∀ b ∈ argList, b ≠ main_v1) b hb)
    _ = m ((c.tc : Thread nD τ).loc b) := V1_arg m ρ c b hb

theorem V3_v2 (c : Dev nD) :
    (V3 (F := Ideal) m ρ c main_v2 : Cert.Spec.Arr 1 64)
      = shapeCast S1x64 (m ((c.tc : Thread nD τ).loc main_arg8) : Arr1 64) Gen.shapeCasts_S64_S1x64 := by
  have e : W2 (F := Ideal) m ρ c (Proc.devRef .tc main_arg8) = m ((c.tc : Thread nD τ).loc main_arg8) :=
    (W2_keep m ρ c main_arg8 (by decide)).trans (V1_arg m ρ c main_arg8 (by decide))
  show StableHlo.after (main_part0_ops1 (F := Ideal)) (W2 m ρ c) (Proc.devRef .tc main_v2) = _
  after_results
  rw [e]
  rfl

end Ker

end Enc

open Enc

theorem enc0 (h : Agree m m') (c : Dev Cert.KernelIdeal.nD) :
    (rv m' c Cert.ReferenceIdeal.main_v17 : Cert.Spec.Arr 50000 64) = kv m ρ c Cert.KernelIdeal.main_v1 := by
  funext i
  obtain ⟨r, j, rfl⟩ : ∃ (r : Fin 50000) (j : Fin 64), i = ix2 r j := ⟨i 0, i 1, eq_ix2 i⟩
  refine ((congrFun (rv17 m' c) (ix2 r j)).trans (encRef_apply _ _ _ _ _ _ r j)).trans ?_
  refine Eq.trans ?_ (congrFun (kv1 m ρ c) (ix2 r j)).symm
  refine Eq.trans ?_ (Cert.KernelIdeal.Hand.val0 (Cert.KernelIdeal.Hand.V1 m ρ) c r j).symm
  unfold Cert.Spec.encAt
  rw [V1_arg m ρ c Cert.KernelIdeal.main_arg0 (by decide), V1_arg m ρ c Cert.KernelIdeal.main_arg5 (by decide),
    V1_v0 m ρ c, bias_reshape, h.a0 c, h.a5 c, h.a6 c]

theorem enc1 (h : Agree m m') (c : Dev Cert.KernelIdeal.nD) :
    (rv m' c Cert.ReferenceIdeal.main_v22 : Cert.Spec.Arr 50000 64) = kv m ρ c Cert.KernelIdeal.main_v3 := by
  funext i
  obtain ⟨r, j, rfl⟩ : ∃ (r : Fin 50000) (j : Fin 64), i = ix2 r j := ⟨i 0, i 1, eq_ix2 i⟩
  refine ((congrFun (rv22 m' c) (ix2 r j)).trans (encRef_apply _ _ _ _ _ _ r j)).trans ?_
  refine Eq.trans ?_ (congrFun (kv3 m ρ c) (ix2 r j)).symm
  refine Eq.trans ?_ (Cert.KernelIdeal.Hand.val1 (Cert.KernelIdeal.Hand.V3 m ρ) c r j).symm
  unfold Cert.Spec.encAt
  rw [V3_arg m ρ c Cert.KernelIdeal.main_arg1 (by decide), V3_arg m ρ c Cert.KernelIdeal.main_arg7 (by decide),
    V3_v2 m ρ c, bias_reshape, h.a1 c, h.a7 c, h.a8 c]

end Cert.Bridge

end
-- ==== Proof.Bridge.Layer.lean ====
-- The two graph layers: the same gather, scale and scatter-add on equal tables.
import proofs.«400336_j15375982920184_3_alg».proof.Proof.Bridge.Enc
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

open scoped BigOperators

noncomputable section

namespace Cert.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

namespace Lay

section Defs
open Cert.ReferenceIdeal

abbrev Edges : Type := (⟨S1600000, .i32⟩ : BufTy).Contents (Elt Ideal)
abbrev Table : Type := (⟨S100000x64, .f32⟩ : BufTy).Contents (Elt Ideal)

def degNorm (idx : Edges) : (⟨S100000x1, .f32⟩ : BufTy).Contents (Elt Ideal) :=
  broadcastInDim S100000x1 ![0] Gen.bcast_S100000_S100000x1_0
    (Host.rsqrt (F := Ideal) (φ := .f32)
      (maximumf (F := Ideal) (φ := .f32)
        (broadcastInDim S100000 ![] Gen.bcast_S_S100000 (constant (F := Ideal) S_ .f32 0x3F800000#32))
        (Host.scatterAdd (F := Ideal) scatter_S100000_S1600000x1_S1600000_n_0_0_1
          (broadcastInDim S100000 ![] Gen.bcast_S_S100000 (constant (F := Ideal) S_ .f32 0x00000000#32))
          (broadcastInDim S1600000x1 ![0] Gen.bcast_S1600000_S1600000x1_0 idx)
          (broadcastInDim S1600000 ![] Gen.bcast_S_S1600000 (constant (F := Ideal) S_ .f32 0x3F800000#32)))))

def layer (x : Table) (src dst : Edges) : Table :=
  mulf (F := Ideal) (φ := .f32)
    (Host.scatterAdd (F := Ideal) scatter_S100000x64_S1600000x1_S1600000x64_1_0_0_1
      (broadcastInDim S100000x64 ![] Gen.bcast_S_S100000x64 (constant (F := Ideal) S_ .f32 0x00000000#32))
      (broadcastInDim S1600000x1 ![0] Gen.bcast_S1600000_S1600000x1_0 dst)
      (Host.gather gather_S100000x64_S1600000x1_S1600000x64_1_0_n_n_0_1_164
        (mulf (F := Ideal) (φ := .f32) x (broadcastInDim S100000x64 ![0, 1] Gen.bcast_S100000x1_S100000x64_0_1 (degNorm src)))
        (broadcastInDim S1600000x1 ![0] Gen.bcast_S1600000_S1600000x1_0
          (select (cmpi .slt src (broadcastInDim S1600000 ![] Gen.bcast_S_S1600000 (constantI S_ 32 0#32)))
            (addi src (broadcastInDim S1600000 ![] Gen.bcast_S_S1600000 (constantI S_ 32 100000#32))) src))))
    (broadcastInDim S100000x64 ![0, 1] Gen.bcast_S100000x1_S100000x64_0_1 (degNorm dst))

def stack (a b : (⟨S50000x64, .f32⟩ : BufTy).Contents (Elt Ideal)) : Table :=
  concatenate S100000x64 0 [⟨S50000x64, a⟩, ⟨S50000x64, b⟩] Gen.concatenates_S50000x64_S50000x64_S100000x64_d0

end Defs

theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

section RefClip
open Cert.ReferenceIdeal Cert.ReferenceIdeal.Hand

theorem clipR0 (V : Valuation τ sig (Elt Ideal)) :
    HloOp.result (no_index (StableHlo.TRef.binary main_call0.v1 (.of main_v3 : StableHlo.TRef sig ⟨S100000, .f32⟩) main_call0.v2 (maximumf (F := Ideal) (s := S100000) (φ := .f32))))
      (no_index ((StableHlo.TRef.unary main_call0.v0 main_call0.v1 (broadcastInDim S100000 ![] Gen.bcast_S_S100000)).result
        ((StableHlo.TRef.unary (.of main_cst_2 : StableHlo.TRef sig ⟨S_, .f32⟩) main_call0.v0 id).result V)))
      (no_index (Proc.devRef .tc main_v7))
    = maximumf (F := Ideal) (φ := .f32) (broadcastInDim S100000 ![] Gen.bcast_S_S100000 (V (Proc.devRef .tc main_cst_2)))
        (V (Proc.devRef .tc main_v3)) := by
  show StableHlo.after [StableHlo.TRef.unary (.of main_cst_2 : StableHlo.TRef sig ⟨S_, .f32⟩) main_call0.v0 id,
    StableHlo.TRef.unary main_call0.v0 main_call0.v1 (broadcastInDim S100000 ![] Gen.bcast_S_S100000),
    StableHlo.TRef.binary main_call0.v1 (.of main_v3 : StableHlo.TRef sig ⟨S100000, .f32⟩) main_call0.v2 (maximumf (F := Ideal) (s := S100000) (φ := .f32))] V
      (Proc.devRef .tc main_v7) = _
  after_results
  rfl

theorem clipR1 (V : Valuation τ sig (Elt Ideal)) :
    HloOp.result (no_index (StableHlo.TRef.binary main_call1.v1 (.of main_v6 : StableHlo.TRef sig ⟨S100000, .f32⟩) main_call1.v2 (maximumf (F := Ideal) (s := S100000) (φ := .f32))))
      (no_index ((StableHlo.TRef.unary main_call1.v0 main_call1.v1 (broadcastInDim S100000 ![] Gen.bcast_S_S100000)).result
        ((StableHlo.TRef.unary (.of main_cst_3 : StableHlo.TRef sig ⟨S_, .f32⟩) main_call1.v0 id).result V)))
      (no_index (Proc.devRef .tc main_v10))
    = maximumf (F := Ideal) (φ := .f32) (broadcastInDim S100000 ![] Gen.bcast_S_S100000 (V (Proc.devRef .tc main_cst_3)))
        (V (Proc.devRef .tc main_v6)) := by
  show StableHlo.after [StableHlo.TRef.unary (.of main_cst_3 : StableHlo.TRef sig ⟨S_, .f32⟩) main_call1.v0 id,
    StableHlo.TRef.unary main_call1.v0 main_call1.v1 (broadcastInDim S100000 ![] Gen.bcast_S_S100000),
    StableHlo.TRef.binary main_call1.v1 (.of main_v6 : StableHlo.TRef sig ⟨S100000, .f32⟩) main_call1.v2 (maximumf (F := Ideal) (s := S100000) (φ := .f32))] V
      (Proc.devRef .tc main_v10) = _
  after_results
  rfl

end RefClip

section KerClip
open Cert.KernelIdeal Cert.KernelIdeal.Gen Cert.KernelIdeal.Hand

theorem clipK0 (V : Valuation τ sig (Elt Ideal)) :
    HloOp.result (no_index (StableHlo.TRef.binary (.of main_call0_v1 : StableHlo.TRef sig ⟨S100000, .f32⟩) (.of main_v7 : StableHlo.TRef sig ⟨S100000, .f32⟩) (.of main_v11 : StableHlo.TRef sig ⟨S100000, .f32⟩) (maximumf (F := Ideal) (s := S100000) (φ := .f32))))
      (no_index ((StableHlo.TRef.unary (.of main_call0_v0 : StableHlo.TRef sig ⟨S_, .f32⟩) (.of main_call0_v1 : StableHlo.TRef sig ⟨S100000, .f32⟩) (broadcastInDim S100000 ![] bcast_S_S100000)).result
        ((StableHlo.TRef.unary (.of main_cst_2 : StableHlo.TRef sig ⟨S_, .f32⟩) (.of main_call0_v0 : StableHlo.TRef sig ⟨S_, .f32⟩) id).result V)))
      (no_index (Proc.devRef .tc main_v11))
    = maximumf (F := Ideal) (φ := .f32) (broadcastInDim S100000 ![] bcast_S_S100000 (V (Proc.devRef .tc main_cst_2)))
        (V (Proc.devRef .tc main_v7)) := by
  show StableHlo.after (main_part0_ops3 (F := Ideal)) V (Proc.devRef .tc main_v11) = _
  after_results
  rfl

theorem clipK1 (V : Valuation τ sig (Elt Ideal)) :
    HloOp.result (no_index (StableHlo.TRef.binary (.of main_call1_v1 : StableHlo.TRef sig ⟨S100000, .f32⟩) (.of main_v10 : StableHlo.TRef sig ⟨S100000, .f32⟩) (.of main_v14 : StableHlo.TRef sig ⟨S100000, .f32⟩) (maximumf (F := Ideal) (s := S100000) (φ := .f32))))
      (no_index ((StableHlo.TRef.unary (.of main_call1_v0 : StableHlo.TRef sig ⟨S_, .f32⟩) (.of main_call1_v1 : StableHlo.TRef sig ⟨S100000, .f32⟩) (broadcastInDim S100000 ![] bcast_S_S100000)).result
        ((StableHlo.TRef.unary (.of main_cst_3 : StableHlo.TRef sig ⟨S_, .f32⟩) (.of main_call1_v0 : StableHlo.TRef sig ⟨S_, .f32⟩) id).result V)))
      (no_index (Proc.devRef .tc main_v14))
    = maximumf (F := Ideal) (φ := .f32) (broadcastInDim S100000 ![] bcast_S_S100000 (V (Proc.devRef .tc main_cst_3)))
        (V (Proc.devRef .tc main_v10)) := by
  show StableHlo.after (main_part0_ops5 (F := Ideal)) V (Proc.devRef .tc main_v14) = _
  after_results
  rfl

end KerClip

local macro "line_results" : tactic =>
  `(tactic| simp (disch := decide) only [↓clipR0, ↓clipR1, ↓clipK0, ↓clipK1, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne'])

section Ref
open Cert.ReferenceIdeal Cert.ReferenceIdeal.Hand

theorem R_parts (c : Dev nD) :
    R (F := Ideal) m' c = StableHlo.after ops4 (StableHlo.after ops3 (StableHlo.after ops2 (StableHlo.after ops1
      (StableHlo.after ops0 (StableHlo.launchContents m' c))))) := by
  unfold R ops
  simp only [after_append]

theorem stackR :
    (fun (a b : (⟨S50000x64, .f32⟩ : BufTy).Contents (Elt Ideal)) =>
      concatenate S100000x64 0 [⟨S50000x64, a⟩, ⟨S50000x64, b⟩] Gen.concatenates_S50000x64_S50000x64_S100000x64_d0) = stack := rfl

set_option maxHeartbeats 8000000 in
theorem rv37 (c : Dev nD) :
    (rv m' c main_v37 : Table) = layer (stack (rv m' c main_v17) (rv m' c main_v22))
      (m' ((c.tc : Thread nD τ).loc main_arg12)) (m' ((c.tc : Thread nD τ).loc main_arg13)) := by
  show R (F := Ideal) m' c (Proc.devRef .tc main_v37)
    = layer (stack (R (F := Ideal) m' c (Proc.devRef .tc main_v17)) (R (F := Ideal) m' c (Proc.devRef .tc main_v22)))
        (StableHlo.launchContents m' c (Proc.devRef .tc main_arg12)) (StableHlo.launchContents m' c (Proc.devRef .tc main_arg13))
  rw [R_parts]
  generalize StableHlo.launchContents m' c = L
  simp only [ops0, ops1, ops2, ops3, ops4, stackR]
  line_results
  unfold layer degNorm
  rfl

set_option maxHeartbeats 8000000 in
theorem rv59 (c : Dev nD) :
    (rv m' c main_v59 : Table) = layer (rv m' c main_v37)
      (m' ((c.tc : Thread nD τ).loc main_arg12)) (m' ((c.tc : Thread nD τ).loc main_arg13)) := by
  show R (F := Ideal) m' c (Proc.devRef .tc main_v59)
    = layer (R (F := Ideal) m' c (Proc.devRef .tc main_v37))
        (StableHlo.launchContents m' c (Proc.devRef .tc main_arg12)) (StableHlo.launchContents m' c (Proc.devRef .tc main_arg13))
  rw [R_parts]
  generalize StableHlo.launchContents m' c = L
  simp only [ops0, ops1, ops2, ops3, ops4, stackR]
  line_results
  unfold layer degNorm
  rfl

end Ref

section Ker
open Cert.KernelIdeal Cert.KernelIdeal.Gen Cert.KernelIdeal.Hand

theorem scatCnt_eq : scatter_S100000_S1600000x1_S1600000_n_0_0_1
    = Cert.ReferenceIdeal.scatter_S100000_S1600000x1_S1600000_n_0_0_1 := rfl
theorem gathRows_eq : gather_S100000x64_S1600000x1_S1600000x64_1_0_n_n_0_1_164
    = Cert.ReferenceIdeal.gather_S100000x64_S1600000x1_S1600000x64_1_0_n_n_0_1_164 := rfl
theorem scatRows_eq : scatter_S100000x64_S1600000x1_S1600000x64_1_0_0_1
    = Cert.ReferenceIdeal.scatter_S100000x64_S1600000x1_S1600000x64_1_0_0_1 := rfl

theorem stackK :
    (fun (a b : (⟨S50000x64, .f32⟩ : BufTy).Contents (Elt Ideal)) =>
      concatenate S100000x64 0 [⟨S50000x64, a⟩, ⟨S50000x64, b⟩] concatenates_S50000x64_S50000x64_S100000x64_d0) = stack := rfl

theorem W4_arg (c : Dev nD) (b : Ref sig .tc) (hb : b ∈ argList) :
    W4 (F := Ideal) m ρ c (Proc.devRef .tc b) = m ((c.tc : Thread nD τ).loc b) :=
  (W4_keep m ρ c b ((by decide : ∀ b ∈ argList, b ≠ main_v3) b hb)).trans (Enc.V3_arg m ρ c b hb)

set_option maxHeartbeats 8000000 in
theorem kv31 (c : Dev nD) :
    (kv m ρ c main_v31 : Table) = layer (stack (kv m ρ c main_v1) (kv m ρ c main_v3))
      (m ((c.tc : Thread nD τ).loc main_arg12)) (m ((c.tc : Thread nD τ).loc main_arg13)) := by
  rw [kv_W9 m ρ c main_v31 (by decide) (by decide) (by decide),
    kv_W4 m ρ c main_v1 (by decide) (by decide) (by decide) (by decide) (by decide) (by decide) (by decide) (by decide),
    kv_W4 m ρ c main_v3 (by decide) (by decide) (by decide) (by decide) (by decide) (by decide) (by decide) (by decide),
    ← W4_arg m ρ c main_arg12 (by decide), ← W4_arg m ρ c main_arg13 (by decide)]
  show StableHlo.after (main_part0_ops6 (F := Ideal)) (StableHlo.after main_part0_ops5 (StableHlo.after main_part0_ops4
      (StableHlo.after main_part0_ops3 (StableHlo.after main_part0_ops2 (W4 (F := Ideal) m ρ c))))) (Proc.devRef .tc main_v31) = _
  generalize W4 (F := Ideal) m ρ c = V
  simp only [main_part0_ops2, main_part0_ops3, main_part0_ops4, main_part0_ops5, main_part0_ops6, stackK]
  line_results
  rw [scatCnt_eq, gathRows_eq, scatRows_eq]
  unfold layer degNorm
  rfl

set_option maxHeartbeats 8000000 in
theorem kv48 (c : Dev nD) :
    (kv m ρ c main_v48 : Table) = layer (kv m ρ c main_v31)
      (m ((c.tc : Thread nD τ).loc main_arg12)) (m ((c.tc : Thread nD τ).loc main_arg13)) := by
  rw [kv_W10 m ρ c main_v48 (by decide) (by decide), kv_W9 m ρ c main_v31 (by decide) (by decide) (by decide),
    ← W4_arg m ρ c main_arg12 (by decide), ← W4_arg m ρ c main_arg13 (by decide)]
  show StableHlo.after (main_part1_ops0 (F := Ideal)) (StableHlo.after main_part0_ops6 (StableHlo.after main_part0_ops5
      (StableHlo.after main_part0_ops4 (StableHlo.after main_part0_ops3 (StableHlo.after main_part0_ops2 (W4 (F := Ideal) m ρ c))))))
        (Proc.devRef .tc main_v48)
    = layer (StableHlo.after (main_part0_ops6 (F := Ideal)) (StableHlo.after main_part0_ops5 (StableHlo.after main_part0_ops4
      (StableHlo.after main_part0_ops3 (StableHlo.after main_part0_ops2 (W4 (F := Ideal) m ρ c))))) (Proc.devRef .tc main_v31)) _ _
  generalize W4 (F := Ideal) m ρ c = V
  simp only [main_part0_ops2, main_part0_ops3, main_part0_ops4, main_part0_ops5, main_part0_ops6, main_part1_ops0, stackK]
  line_results
  rw [scatCnt_eq, gathRows_eq, scatRows_eq]
  unfold layer degNorm
  rfl

end Ker

end Lay

open Lay

theorem lay1 (h : Agree m m') (c : Dev Cert.KernelIdeal.nD) :
    (rv m' c Cert.ReferenceIdeal.main_v37 : Cert.Spec.Arr 100000 64) = kv m ρ c Cert.KernelIdeal.main_v31 := by
  rw [rv37 m' c, kv31 m ρ c, enc0 m ρ m' h c, enc1 m ρ m' h c, h.a12 c, h.a13 c]
theorem lay2 (h : Agree m m') (c : Dev Cert.KernelIdeal.nD) :
    (rv m' c Cert.ReferenceIdeal.main_v59 : Cert.Spec.Arr 100000 64) = kv m ρ c Cert.KernelIdeal.main_v48 := by
  rw [rv59 m' c, kv48 m ρ c, lay1 m ρ m' h c, h.a12 c, h.a13 c]

end Cert.Bridge

end
-- ==== Proof.Bridge.SliceSum.lean ====
-- Slicing a stacked table commutes with the pointwise sums and scalings the middle layers apply.
import Idealize.ShloMosaic.Lib.Pipeline.Value
import Idealize.ShloMosaic.Lib.ValueIdx
import Idealize.ShloMosaic.PureOps.Ideal

noncomputable section

namespace Cert.Bridge

open Idealize.ShloMosaic Idealize.ShloMosaic.ValueIdx

abbrev SHalf : Shape := ⟨2, ![50000, 64]⟩
abbrev SWhole : Shape := ⟨2, ![100000, 64]⟩
abbrev SScal : Shape := ⟨0, ![]⟩

section Reads
variable {α : Type}

theorem sliceLo_apply (X : SWhole.Idx → α) (hs : SWhole.Slices ![0, 0] SHalf) (p : Fin 50000) (k : Fin 64) (hp : p.val < 100000) :
    extractStridedSlice SHalf ![0, 0] X hs (ix2 p k) = X (ix2 (⟨p.val, hp⟩ : Fin 100000) k) :=
  extractStridedSlice_apply ![0, 0] X hs (ix2 p k) (ix2 (⟨p.val, hp⟩ : Fin 100000) k) (fun a => by
    match a with
    | ⟨0, _⟩ => show p.val = 0 + p.val; omega
    | ⟨1, _⟩ => show k.val = 0 + k.val; omega)

theorem sliceHi_apply (X : SWhole.Idx → α) (hs : SWhole.Slices ![50000, 0] SHalf) (p : Fin 50000) (k : Fin 64) (hp : 50000 + p.val < 100000) :
    extractStridedSlice SHalf ![50000, 0] X hs (ix2 p k) = X (ix2 (⟨50000 + p.val, hp⟩ : Fin 100000) k) :=
  extractStridedSlice_apply ![50000, 0] X hs (ix2 p k) (ix2 (⟨50000 + p.val, hp⟩ : Fin 100000) k) (fun a => by
    match a with
    | ⟨0, _⟩ => show 50000 + p.val = 50000 + p.val; rfl
    | ⟨1, _⟩ => show k.val = 0 + k.val; omega)

theorem catLo_apply (A B : SHalf.Idx → α) (hc : Shape.Concatenates [SHalf, SHalf] SWhole 0) (p : Fin 50000) (k : Fin 64) (hp : p.val < 100000) :
    concatenate SWhole 0 [⟨SHalf, A⟩, ⟨SHalf, B⟩] hc (ix2 (⟨p.val, hp⟩ : Fin 100000) k) = A (ix2 p k) :=
  concatenate_pair_apply_left (0 : Fin SWhole.rank) A B hc (ix2 (⟨p.val, hp⟩ : Fin 100000) k) rfl (ix2 p k) (fun b => by
    match b with
    | ⟨0, _⟩ => rfl
    | ⟨1, _⟩ => rfl)

theorem catHi_apply (A B : SHalf.Idx → α) (hc : Shape.Concatenates [SHalf, SHalf] SWhole 0) (p : Fin 50000) (k : Fin 64) (hp : 50000 + p.val < 100000) :
    concatenate SWhole 0 [⟨SHalf, A⟩, ⟨SHalf, B⟩] hc (ix2 (⟨50000 + p.val, hp⟩ : Fin 100000) k) = B (ix2 p k) :=
  concatenate_pair_apply_right (0 : Fin SWhole.rank) A B hc (ix2 (⟨50000 + p.val, hp⟩ : Fin 100000) k) rfl rfl (ix2 p k) (fun b hb => by
    match b with
    | ⟨0, _⟩ => exact absurd rfl hb
    | ⟨1, _⟩ => rfl) (by show p.val + 50000 = 50000 + p.val; omega)

theorem splat_apply (t : Shape) (hb : SScal.BroadcastsInDim t (![] : Fin 0 → Fin t.rank)) (x : SScal.Idx → α) (j : t.Idx) :
    broadcastInDim t (![] : Fin 0 → Fin t.rank) hb x j = x ix0 :=
  broadcastInDim_apply (![] : Fin 0 → Fin t.rank) hb x j ix0 (fun a => a.elim0)

end Reads

theorem sliceLo_sum (A B : FVec Ideal SHalf .f32) (E1 E2 : FVec Ideal SWhole .f32) (h t : FVec Ideal SScal .f32)
    (hc : Shape.Concatenates [SHalf, SHalf] SWhole 0) (hs : SWhole.Slices ![0, 0] SHalf)
    (hb : SScal.BroadcastsInDim SWhole (![] : Fin 0 → Fin SWhole.rank)) (hb' : SScal.BroadcastsInDim SHalf (![] : Fin 0 → Fin SHalf.rank)) :
    extractStridedSlice SHalf ![0, 0]
        (addf (addf (concatenate SWhole 0 [⟨SHalf, A⟩, ⟨SHalf, B⟩] hc) (mulf E1 (broadcastInDim SWhole ![] hb h)))
          (mulf E2 (broadcastInDim SWhole ![] hb t))) hs
      = addf (addf A (mulf (extractStridedSlice SHalf ![0, 0] E1 hs) (broadcastInDim SHalf ![] hb' h)))
          (mulf (extractStridedSlice SHalf ![0, 0] E2 hs) (broadcastInDim SHalf ![] hb' t)) := by
  funext j
  obtain ⟨p, k, rfl⟩ : ∃ (p : Fin 50000) (k : Fin 64), j = ix2 p k := ⟨j 0, j 1, eq_ix2 j⟩
  have hp : p.val < 100000 := by have := p.isLt; omega
  rw [sliceLo_apply _ hs p k hp, addf_apply, addf_apply, mulf_apply, mulf_apply, catLo_apply A B hc p k hp, splat_apply, splat_apply,
    addf_apply, addf_apply, mulf_apply, mulf_apply, sliceLo_apply E1 hs p k hp, sliceLo_apply E2 hs p k hp, splat_apply, splat_apply]

theorem sliceHi_sum (A B : FVec Ideal SHalf .f32) (E1 E2 : FVec Ideal SWhole .f32) (h t : FVec Ideal SScal .f32)
    (hc : Shape.Concatenates [SHalf, SHalf] SWhole 0) (hs : SWhole.Slices ![50000, 0] SHalf)
    (hb : SScal.BroadcastsInDim SWhole (![] : Fin 0 → Fin SWhole.rank)) (hb' : SScal.BroadcastsInDim SHalf (![] : Fin 0 → Fin SHalf.rank)) :
    extractStridedSlice SHalf ![50000, 0]
        (addf (addf (concatenate SWhole 0 [⟨SHalf, A⟩, ⟨SHalf, B⟩] hc) (mulf E1 (broadcastInDim SWhole ![] hb h)))
          (mulf E2 (broadcastInDim SWhole ![] hb t))) hs
      = addf (addf B (mulf (extractStridedSlice SHalf ![50000, 0] E1 hs) (broadcastInDim SHalf ![] hb' h)))
          (mulf (extractStridedSlice SHalf ![50000, 0] E2 hs) (broadcastInDim SHalf ![] hb' t)) := by
  funext j
  obtain ⟨p, k, rfl⟩ : ∃ (p : Fin 50000) (k : Fin 64), j = ix2 p k := ⟨j 0, j 1, eq_ix2 j⟩
  have hp : 50000 + p.val < 100000 := by have := p.isLt; omega
  rw [sliceHi_apply _ hs p k hp, addf_apply, addf_apply, mulf_apply, mulf_apply, catHi_apply A B hc p k hp, splat_apply, splat_apply,
    addf_apply, addf_apply, mulf_apply, mulf_apply, sliceHi_apply E1 hs p k hp, sliceHi_apply E2 hs p k hp, splat_apply, splat_apply]

theorem sliceHi_sum_side (A B side : FVec Ideal SHalf .f32) (E1 E2 : FVec Ideal SWhole .f32) (h t : FVec Ideal SScal .f32)
    (hc : Shape.Concatenates [SHalf, SHalf] SWhole 0) (hs : SWhole.Slices ![50000, 0] SHalf)
    (hb : SScal.BroadcastsInDim SWhole (![] : Fin 0 → Fin SWhole.rank)) (hb' : SScal.BroadcastsInDim SHalf (![] : Fin 0 → Fin SHalf.rank)) :
    addf (extractStridedSlice SHalf ![50000, 0]
        (addf (addf (concatenate SWhole 0 [⟨SHalf, A⟩, ⟨SHalf, B⟩] hc) (mulf E1 (broadcastInDim SWhole ![] hb h)))
          (mulf E2 (broadcastInDim SWhole ![] hb t))) hs) side
      = addf (addf (addf B (mulf (extractStridedSlice SHalf ![50000, 0] E1 hs) (broadcastInDim SHalf ![] hb' h)))
          (mulf (extractStridedSlice SHalf ![50000, 0] E2 hs) (broadcastInDim SHalf ![] hb' t))) side :=
  congrArg (addf · side) (sliceHi_sum A B E1 E2 h t hc hs hb hb')

end Cert.Bridge

end
-- ==== Proof.Bridge.Mid.lean ====
-- The first two results: the halves of the averaged layer outputs, the item half with its side features added.
import proofs.«400336_j15375982920184_3_alg».proof.Proof.Bridge.Layer
import proofs.«400336_j15375982920184_3_alg».proof.Proof.Bridge.SliceSum
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

open scoped BigOperators

noncomputable section

namespace Cert.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

section K
open Cert.KernelIdeal Cert.KernelIdeal.Gen Cert.KernelIdeal.Hand

theorem k_v52 (c : Dev nD) :
    W10 m ρ c (Proc.devRef .tc main_v52)
      = extractStridedSlice S50000x64 ![0, 0] (W10 m ρ c (Proc.devRef .tc main_v51)) slices_S100000x64_S50000x64_0_0 := by
  dsimp only [W10]
  generalize W9 m ρ c = X
  after_results_simp

theorem k_v54 (c : Dev nD) :
    W10 m ρ c (Proc.devRef .tc main_v54)
      = addf (F := Ideal) (φ := .f32) (extractStridedSlice S50000x64 ![50000, 0] (W10 m ρ c (Proc.devRef .tc main_v51)) slices_S100000x64_S50000x64_50000_0)
          (W10 m ρ c (Proc.devRef .tc main_arg2)) := by
  dsimp only [W10]
  generalize W9 m ρ c = X
  after_results_simp

theorem k_v51 (c : Dev nD) :
    W10 m ρ c (Proc.devRef .tc main_v51)
      = addf (F := Ideal) (W9 m ρ c (Proc.devRef .tc main_v34))
          (mulf (W10 m ρ c (Proc.devRef .tc main_v48))
            (broadcastInDim S100000x64 ![] bcast_S_S100000x64 (constant (F := Ideal) S_ .f32 0x3EAAAAAB#32))) := by
  dsimp only [W10]
  generalize W9 m ρ c = X
  after_results_simp

theorem k_v34 (c : Dev nD) :
    W9 m ρ c (Proc.devRef .tc main_v34)
      = addf (F := Ideal) (W9 m ρ c (Proc.devRef .tc main_v17))
          (mulf (W9 m ρ c (Proc.devRef .tc main_v31))
            (broadcastInDim S100000x64 ![] bcast_S_S100000x64 (constant (F := Ideal) S_ .f32 0x3F000000#32))) := by
  dsimp only [W9]
  generalize W8 m ρ c = X
  after_results_simp

theorem k_v17 (c : Dev nD) :
    W9 m ρ c (Proc.devRef .tc main_v17)
      = concatenate S100000x64 0 [⟨S50000x64, W8 m ρ c (Proc.devRef .tc main_v1)⟩, ⟨S50000x64, W8 m ρ c (Proc.devRef .tc main_v3)⟩]
          concatenates_S50000x64_S50000x64_S100000x64_d0 := by
  dsimp only [W9]
  generalize W8 m ρ c = X
  after_results

-- The stacked encoder outputs plus half the first layer's and a third of the second's.
def ksum (c : Dev nD) :=
  addf (F := Ideal)
    (addf (concatenate S100000x64 0 [⟨S50000x64, kv m ρ c main_v1⟩, ⟨S50000x64, kv m ρ c main_v3⟩]
        concatenates_S50000x64_S50000x64_S100000x64_d0)
      (mulf (kv m ρ c main_v31)
        (broadcastInDim S100000x64 ![] bcast_S_S100000x64 (constant (F := Ideal) S_ .f32 0x3F000000#32))))
    (mulf (kv m ρ c main_v48)
      (broadcastInDim S100000x64 ![] bcast_S_S100000x64 (constant (F := Ideal) S_ .f32 0x3EAAAAAB#32)))

theorem k_sum (c : Dev nD) :
    W10 m ρ c (Proc.devRef .tc main_v51)
      = ksum m ρ c := by
  unfold ksum
  rw [k_v51, k_v34, k_v17, ← kv_W10 m ρ c main_v48 (by decide) (by decide),
    ← kv_W9 m ρ c main_v31 (by decide) (by decide) (by decide),
    ← kv_W8 m ρ c main_v1 (by decide) (by decide) (by decide) (by decide),
    ← kv_W8 m ρ c main_v3 (by decide) (by decide) (by decide) (by decide)]

theorem k_mid0 (c : Dev nD) :
    kv m ρ c main_v52
      = extractStridedSlice S50000x64 ![0, 0]
          (ksum m ρ c)
          slices_S100000x64_S50000x64_0_0 := by
  rw [kv_W10 m ρ c main_v52 (by decide) (by decide), k_v52, k_sum]

theorem k_mid1 (c : Dev nD) :
    kv m ρ c main_v54
      = addf (F := Ideal)
          (extractStridedSlice S50000x64 ![50000, 0]
            (ksum m ρ c)
            slices_S100000x64_S50000x64_50000_0)
          (kv m ρ c main_arg2) := by
  rw [kv_W10 m ρ c main_v54 (by decide) (by decide), k_v54, k_sum, ← kv_W10 m ρ c main_arg2 (by decide) (by decide)]

end K

section R
open Cert.ReferenceIdeal Cert.ReferenceIdeal.Gen Cert.ReferenceIdeal.Hand

theorem R_split (c : Dev nD) :
    R (F := Ideal) m' c
      = StableHlo.after ops4 (StableHlo.after ops3 (StableHlo.after ops2 (StableHlo.after ops1
          (StableHlo.after ops0 (StableHlo.launchContents m' c))))) := by
  unfold Cert.ReferenceIdeal.Hand.R
  show StableHlo.after (ops0 ++ ops1 ++ ops2 ++ ops3 ++ ops4) _ = _
  rw [StableHlo.after_append, StableHlo.after_append, StableHlo.after_append, StableHlo.after_append]

set_option maxHeartbeats 4000000 in
theorem r_mid0 (c : Dev nD) :
    rv m' c main_v63
      = addf (F := Ideal)
          (addf (rv m' c main_v17)
            (mulf (extractStridedSlice S50000x64 ![0, 0] (rv m' c main_v37) slices_S100000x64_S50000x64_0_0)
              (broadcastInDim S50000x64 ![] bcast_S_S50000x64 (constant (F := Ideal) S_ .f32 0x3F000000#32))))
          (mulf (extractStridedSlice S50000x64 ![0, 0] (rv m' c main_v59) slices_S100000x64_S50000x64_0_0)
            (broadcastInDim S50000x64 ![] bcast_S_S50000x64 (constant (F := Ideal) S_ .f32 0x3EAAAAAB#32))) := by
  dsimp only [rv]
  rw [R_split]
  generalize StableHlo.launchContents m' c = V
  after_results_simp

set_option maxHeartbeats 4000000 in
theorem r_mid1 (c : Dev nD) :
    rv m' c main_v68
      = addf (F := Ideal) (φ := .f32)
          (addf (F := Ideal)
            (addf (rv m' c main_v22)
              (mulf (extractStridedSlice S50000x64 ![50000, 0] (rv m' c main_v37) slices_S100000x64_S50000x64_50000_0)
                (broadcastInDim S50000x64 ![] bcast_S_S50000x64 (constant (F := Ideal) S_ .f32 0x3F000000#32))))
            (mulf (extractStridedSlice S50000x64 ![50000, 0] (rv m' c main_v59) slices_S100000x64_S50000x64_50000_0)
              (broadcastInDim S50000x64 ![] bcast_S_S50000x64 (constant (F := Ideal) S_ .f32 0x3EAAAAAB#32))))
          (rv m' c main_arg2) := by
  dsimp only [rv]
  rw [R_split]
  generalize StableHlo.launchContents m' c = V
  after_results_simp

end R

theorem arg2_agree (h : Agree m m') (c : Dev Cert.KernelIdeal.nD) :
    (rv m' c Cert.ReferenceIdeal.main_arg2 : Cert.Spec.Arr 50000 64) = kv m ρ c Cert.KernelIdeal.main_arg2 :=
  (Cert.ReferenceIdeal.Hand.R_arg m' c Cert.ReferenceIdeal.main_arg2 (by decide)).trans
    ((h.a2 c).trans (Cert.KernelIdeal.Hand.W12_arg m ρ c Cert.KernelIdeal.main_arg2 (by decide)).symm)

theorem mid0 (h : Agree m m') (c : Dev Cert.KernelIdeal.nD) :
    (rv m' c Cert.ReferenceIdeal.main_v63 : Cert.Spec.Arr 50000 64) = kv m ρ c Cert.KernelIdeal.main_v52 := by
  rw [r_mid0 m' c, k_mid0 m ρ c, enc0 m ρ m' h c, lay1 m ρ m' h c, lay2 m ρ m' h c]
  unfold ksum
  exact (sliceLo_sum _ _ _ _ _ _ _ _ _ _).symm
theorem mid1 (h : Agree m m') (c : Dev Cert.KernelIdeal.nD) :
    (rv m' c Cert.ReferenceIdeal.main_v68 : Cert.Spec.Arr 50000 64) = kv m ρ c Cert.KernelIdeal.main_v54 := by
  rw [r_mid1 m' c, k_mid1 m ρ c, enc1 m ρ m' h c, lay1 m ρ m' h c, lay2 m ρ m' h c, arg2_agree m ρ m' h c]
  unfold ksum
  exact (sliceHi_sum_side _ _ _ _ _ _ _ _ _ _ _).symm

end Cert.Bridge

end
-- ==== Proof.Bridge.Gat.lean ====
-- The three row gathers feeding the decoder pick the same rows on both sides.
import proofs.«400336_j15375982920184_3_alg».proof.Proof.Bridge.Mid
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

open scoped BigOperators

noncomputable section

namespace Cert.Bridge.Gat

open Idealize.ShloMosaic Idealize.ShloMosaic.TcCoe Idealize.ShloMosaic.ValueIdx Idealize.SL.Sem

def rowIdx (x : (⟨Cert.KernelIdeal.S200000, .i32⟩ : BufTy).Contents (Elt Ideal)) :
    (⟨Cert.KernelIdeal.S200000x1, .i32⟩ : BufTy).Contents (Elt Ideal) :=
  broadcastInDim Cert.KernelIdeal.S200000x1 ![0] Cert.KernelIdeal.Gen.bcast_S200000_S200000x1_0
    (select (cmpi .slt x (broadcastInDim Cert.KernelIdeal.S200000 ![] Cert.KernelIdeal.Gen.bcast_S_S200000 (constantI Cert.KernelIdeal.S_ 32 0#32)))
      (addi x (broadcastInDim Cert.KernelIdeal.S200000 ![] Cert.KernelIdeal.Gen.bcast_S_S200000 (constantI Cert.KernelIdeal.S_ 32 50000#32))) x)

def rows (t : (⟨Cert.KernelIdeal.S50000x64, .f32⟩ : BufTy).Contents (Elt Ideal))
    (x : (⟨Cert.KernelIdeal.S200000, .i32⟩ : BufTy).Contents (Elt Ideal)) :
    (⟨Cert.KernelIdeal.S200000x64, .f32⟩ : BufTy).Contents (Elt Ideal) :=
  Host.gather Cert.KernelIdeal.gather_S50000x64_S200000x1_S200000x64_1_0_n_n_0_1_164 t (rowIdx x)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

section KernelSide

open Cert.KernelIdeal Cert.KernelIdeal.Gen Cert.KernelIdeal.Hand Idealize.ShloMosaic.StableHlo

theorem ker_rows0 (V : Valuation τ sig (Elt Ideal)) :
    after main_part1_ops0 V (Proc.devRef .tc main_v61)
      = rows (after main_part1_ops0 V (Proc.devRef .tc main_v52)) (V (Proc.devRef .tc main_arg14)) := by
  after_results_simp
  rfl

theorem ker_rows1 (V : Valuation τ sig (Elt Ideal)) :
    after main_part1_ops0 V (Proc.devRef .tc main_v68)
      = rows (after main_part1_ops0 V (Proc.devRef .tc main_v54)) (V (Proc.devRef .tc main_arg15)) := by
  after_results_simp
  rfl

theorem ker_rows2 (V : Valuation τ sig (Elt Ideal)) :
    after main_part1_ops0 V (Proc.devRef .tc main_v75)
      = rows (after main_part1_ops0 V (Proc.devRef .tc main_v54)) (V (Proc.devRef .tc main_arg16)) := by
  after_results_simp
  rfl

theorem ker_gat0 (c : Dev nD) :
    kv m ρ c main_v61 = rows (kv m ρ c main_v52) (m ((c.tc : Thread nD τ).loc main_arg14)) := by
  rw [kv_W10 m ρ c main_v61 (by decide) (by decide), kv_W10 m ρ c main_v52 (by decide) (by decide),
    ← W9_arg m ρ c main_arg14 (by decide)]
  exact ker_rows0 (W9 m ρ c)

theorem ker_gat1 (c : Dev nD) :
    kv m ρ c main_v68 = rows (kv m ρ c main_v54) (m ((c.tc : Thread nD τ).loc main_arg15)) := by
  rw [kv_W10 m ρ c main_v68 (by decide) (by decide), kv_W10 m ρ c main_v54 (by decide) (by decide),
    ← W9_arg m ρ c main_arg15 (by decide)]
  exact ker_rows1 (W9 m ρ c)

theorem ker_gat2 (c : Dev nD) :
    kv m ρ c main_v75 = rows (kv m ρ c main_v54) (m ((c.tc : Thread nD τ).loc main_arg16)) := by
  rw [kv_W10 m ρ c main_v75 (by decide) (by decide), kv_W10 m ρ c main_v54 (by decide) (by decide),
    ← W9_arg m ρ c main_arg16 (by decide)]
  exact ker_rows2 (W9 m ρ c)

end KernelSide

section ReferenceSide

open Cert.ReferenceIdeal Cert.ReferenceIdeal.Gen Cert.ReferenceIdeal.Hand Idealize.ShloMosaic.StableHlo

theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

theorem not_mem_of_lt {k : Nat} {b y : Ref sig .tc} (hy : k ≤ y.idx.val) (hb : b.idx.val < k) :
    Proc.devRef (τ := τ) .tc b ∉ ({Proc.devRef .tc y} : Finset (DevRef τ sig)) := fun h =>
  absurd (congrArg (fun r : Ref sig .tc => r.idx.val) (Proc.devRef_injective _ (Finset.mem_singleton.1 h)))
    (Nat.ne_of_lt (Nat.lt_of_lt_of_le hb hy))

structure From (k : Nat) (op : HloOp τ sig (Elt Ideal)) : Prop where
  low : ∀ b : Ref sig .tc, b.idx.val < k → Proc.devRef (τ := τ) .tc b ∉ op.writes

namespace From

variable {k : Nat} {x a b c y : Ref sig .tc}

theorem nullary (v : y.ty.Contents (Elt Ideal)) (hy) (hk : k ≤ y.idx.val := by decide) :
    From k (StableHlo.nullary (τ := τ) y v hy) := ⟨fun _ hb => not_mem_of_lt hk hb⟩

theorem unary (f : x.ty.Contents (Elt Ideal) → y.ty.Contents (Elt Ideal)) (hx hy) (hk : k ≤ y.idx.val := by decide) :
    From k (StableHlo.unary (τ := τ) x y f hx hy) := ⟨fun _ hb => not_mem_of_lt hk hb⟩

theorem binary (f : a.ty.Contents (Elt Ideal) → b.ty.Contents (Elt Ideal) → y.ty.Contents (Elt Ideal)) (ha hb hy)
    (hk : k ≤ y.idx.val := by decide) : From k (StableHlo.binary (τ := τ) a b y f ha hb hy) :=
  ⟨fun _ hr => not_mem_of_lt hk hr⟩

theorem ternary (f : c.ty.Contents (Elt Ideal) → a.ty.Contents (Elt Ideal) → b.ty.Contents (Elt Ideal) → y.ty.Contents (Elt Ideal))
    (hc ha hb hy) (hk : k ≤ y.idx.val := by decide) : From k (StableHlo.ternary (τ := τ) c a b y f hc ha hb hy) :=
  ⟨fun _ hr => not_mem_of_lt hk hr⟩

theorem nary {n : Nat} (xs : Fin n → Ref sig .tc) (f : ((j : Fin n) → (xs j).ty.Contents (Elt Ideal)) → y.ty.Contents (Elt Ideal))
    (hxs hy) (hk : k ≤ y.idx.val := by decide) : From k (StableHlo.nary (τ := τ) xs y f hxs hy) :=
  ⟨fun _ hr => not_mem_of_lt hk hr⟩

theorem reshape (he hn hx hy) (hk : k ≤ y.idx.val := by decide) :
    From k (StableHlo.reshape (τ := τ) (Val := Elt Ideal) x y he hn hx hy) := ⟨fun _ hr => not_mem_of_lt hk hr⟩

end From

theorem after_from {k : Nat} (l : List (HloOp τ sig (Elt Ideal))) (hl : l.Forall (From k)) (V : Valuation τ sig (Elt Ideal))
    (b : Ref sig .tc) (hb : b.idx.val < k) : after l V (Proc.devRef .tc b) = V (Proc.devRef .tc b) :=
  after_of_forall_not_mem l V fun op hop => (List.forall_iff_forall_mem.1 hl op hop).low b hb

theorem ops3_from : (ops3 : List (HloOp τ sig (Elt Ideal))).Forall (From 137) := by
  repeat' apply And.intro
  all_goals first
    | exact From.unary .. | exact From.binary .. | exact From.nullary .. | exact From.ternary ..
    | exact From.nary .. | exact From.reshape ..

theorem ops4_from : (ops4 : List (HloOp τ sig (Elt Ideal))).Forall (From 137) := by
  repeat' apply And.intro
  all_goals first
    | exact From.unary .. | exact From.binary .. | exact From.nullary .. | exact From.ternary ..
    | exact From.nary .. | exact From.reshape ..

theorem rv_third (c : Dev nD) (b : Ref sig .tc) (hb : b.idx.val < 137) :
    rv m' c b = after ops2 (after ops1 (after ops0 (launchContents m' c))) (Proc.devRef .tc b) := by
  show after (ops0 ++ ops1 ++ ops2 ++ ops3 ++ ops4) (launchContents m' c) (Proc.devRef .tc b) = _
  rw [after_append, after_append, after_append, after_append, after_from ops4 ops4_from _ b hb,
    after_from ops3 ops3_from _ b hb]

theorem third_arg (c : Dev nD) (b : Ref sig .tc) (hb : b ∈ Cert.ReferenceIdeal.Hand.argList) :
    after ops1 (after ops0 (launchContents m' c)) (Proc.devRef .tc b) = m' ((c.tc : Thread nD τ).loc b) :=
  (after_of_forall_not_mem ops1 _ fun op hop => (List.forall_iff_forall_mem.1 ops1_line op hop).high b (arg_low b hb)).trans
    (after_of_forall_not_mem ops0 _ fun op hop => (List.forall_iff_forall_mem.1 ops0_line op hop).high b (arg_low b hb))

theorem ref_rows0 (V : Valuation τ sig (Elt Ideal)) :
    after ops2 V (Proc.devRef .tc main_v75)
      = rows (after ops2 V (Proc.devRef .tc main_v63)) (V (Proc.devRef .tc main_arg14)) := by
  after_results_simp
  rfl

theorem ref_rows1 (V : Valuation τ sig (Elt Ideal)) :
    after ops2 V (Proc.devRef .tc main_v82)
      = rows (after ops2 V (Proc.devRef .tc main_v68)) (V (Proc.devRef .tc main_arg15)) := by
  after_results_simp
  rfl

theorem ref_rows2 (V : Valuation τ sig (Elt Ideal)) :
    after ops2 V (Proc.devRef .tc main_v89)
      = rows (after ops2 V (Proc.devRef .tc main_v68)) (V (Proc.devRef .tc main_arg16)) := by
  after_results_simp
  rfl

theorem ref_gat0 (c : Dev nD) :
    rv m' c main_v75 = rows (rv m' c main_v63) (m' ((c.tc : Thread nD τ).loc main_arg14)) := by
  rw [rv_third m' c main_v75 (by decide), rv_third m' c main_v63 (by decide), ← third_arg m' c main_arg14 (by decide)]
  exact ref_rows0 _

theorem ref_gat1 (c : Dev nD) :
    rv m' c main_v82 = rows (rv m' c main_v68) (m' ((c.tc : Thread nD τ).loc main_arg15)) := by
  rw [rv_third m' c main_v82 (by decide), rv_third m' c main_v68 (by decide), ← third_arg m' c main_arg15 (by decide)]
  exact ref_rows1 _

theorem ref_gat2 (c : Dev nD) :
    rv m' c main_v89 = rows (rv m' c main_v68) (m' ((c.tc : Thread nD τ).loc main_arg16)) := by
  rw [rv_third m' c main_v89 (by decide), rv_third m' c main_v68 (by decide), ← third_arg m' c main_arg16 (by decide)]
  exact ref_rows2 _

end ReferenceSide

end Cert.Bridge.Gat

namespace Cert.Bridge

open Idealize.ShloMosaic Idealize.ShloMosaic.TcCoe Idealize.ShloMosaic.ValueIdx Idealize.SL.Sem
open Cert.Bridge.Gat

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

theorem gat0 (h : Agree m m') (c : Dev Cert.KernelIdeal.nD) :
    (rv m' c Cert.ReferenceIdeal.main_v75 : Cert.Spec.Arr 200000 64) = kv m ρ c Cert.KernelIdeal.main_v61 := by
  rw [ref_gat0 m' c, ker_gat0 m ρ c, mid0 m ρ m' h c, h.a14 c]
theorem gat1 (h : Agree m m') (c : Dev Cert.KernelIdeal.nD) :
    (rv m' c Cert.ReferenceIdeal.main_v82 : Cert.Spec.Arr 200000 64) = kv m ρ c Cert.KernelIdeal.main_v68 := by
  rw [ref_gat1 m' c, ker_gat1 m ρ c, mid1 m ρ m' h c, h.a15 c]
theorem gat2 (h : Agree m m') (c : Dev Cert.KernelIdeal.nD) :
    (rv m' c Cert.ReferenceIdeal.main_v89 : Cert.Spec.Arr 200000 64) = kv m ρ c Cert.KernelIdeal.main_v75 := by
  rw [ref_gat2 m' c, ker_gat2 m ρ c, mid1 m ρ m' h c, h.a16 c]

end Cert.Bridge

end
-- ==== Proof.Bridge.DecMath.lean ====
-- The reference's decoder read at an index: its 129-term products split 64 + 64 + 1, and its elu through the exponential-minus-one is elu.
import proofs.«400336_j15375982920184_3_alg».proof.Proof.Gen.ReferenceIdeal
import proofs.«400336_j15375982920184_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember

set_option maxRecDepth 16384

open scoped BigOperators

noncomputable section

namespace Cert.ReferenceIdeal.Hand

open Idealize.ShloMosaic Idealize.ShloMosaic.TcCoe Idealize.ShloMosaic.ValueIdx
open Cert.ReferenceIdeal
open Facts₀ Facts

def refCat (u p n : FVec Ideal S200000x64 .f32) (T : FVec Ideal S400000 .f32) : FVec Ideal S400000x129 .f32 :=
  concatenate S400000x129 1
    [⟨S400000x64, concatenate S400000x64 0 [⟨S200000x64, u⟩, ⟨S200000x64, u⟩] concatenates_S200000x64_S200000x64_S400000x64_d0⟩,
     ⟨S400000x64, concatenate S400000x64 0 [⟨S200000x64, p⟩, ⟨S200000x64, n⟩] concatenates_S200000x64_S200000x64_S400000x64_d0⟩,
     ⟨S400000x1, broadcastInDim S400000x1 ![0] bcast_S400000_S400000x1_0 T⟩]
    concatenates_S400000x64_S400000x64_S400000x1_S400000x129_d1

def refHid (u p n : FVec Ideal S200000x64 .f32) (T : FVec Ideal S400000 .f32) (W1 : FVec Ideal S129x64 .f32) (b1 : FVec Ideal S64 .f32) :
    FVec Ideal S400000x64 .f32 :=
  addf (Host.dotGeneral dot_S400000x129_S129x64_S400000x64_1_0_0_1_n_n none (refCat u p n T) W1)
    (broadcastInDim S400000x64 ![0, 1] bcast_S1x64_S400000x64_0_1 (broadcastInDim S1x64 ![1] bcast_S64_S1x64_1 b1))

def refElu (x : FVec Ideal S400000x64 .f32) : FVec Ideal S400000x64 .f32 :=
  select (cmpf .ogt x (broadcastInDim S400000x64 ![] bcast_S_S400000x64 (constant S_ .f32 0x00000000#32))) x
    (mulf (broadcastInDim S400000x64 ![] bcast_S_S400000x64 (constant S_ .f32 0x3F800000#32))
      (Host.expm1 (select (cmpf .ogt x (broadcastInDim S400000x64 ![] bcast_S_S400000x64 (constant S_ .f32 0x00000000#32)))
        (broadcastInDim S400000x64 ![] bcast_S_S400000x64 (constant S_ .f32 0x00000000#32)) x)))

def refDecode (u p n : FVec Ideal S200000x64 .f32) (T : FVec Ideal S400000 .f32) (W1 : FVec Ideal S129x64 .f32) (b1 : FVec Ideal S64 .f32)
    (W2 : FVec Ideal S64x1 .f32) : FVec Ideal S400000 .f32 :=
  shapeCast S400000 (Host.dotGeneral dot_S400000x64_S64x1_S400000x1_1_0_0_1_n_n none (refElu (refHid u p n T W1 b1)) W2)
    shapeCasts_S400000x1_S400000

theorem oneWord : Ideal.ofBits .f32 0x3F800000#32 = 1 := by
  simp [Ideal.ofBits, Ideal.ieee, -EReal.coe_mul]; norm_num

theorem sumCut {M : Type*} [AddCommMonoid M] (f : Fin 129 → M) :
    ∑ k, f k = ((∑ k : Fin 64, f ⟨k.val, by omega⟩) + (∑ k : Fin 64, f ⟨64 + k.val, by omega⟩)) + f ⟨128, by omega⟩ := by
  have hsplit := Fin.sum_univ_castSucc (n := 128) f
  have hhalf := Fin.sum_univ_add (a := 64) (b := 64) (fun i : Fin (64 + 64) => f (Fin.castSucc (n := 128) i))
  rw [hsplit, hhalf]
  rfl

-- The two products at an index: the table times W1 as a 129-term sum, the activations times W2 as a 64-term sum.
theorem hidDot (A : FVec Ideal S400000x129 .f32) (W : FVec Ideal S129x64 .f32) (q : Fin 400000) (j : Fin 64) :
    Host.dotGeneral dot_S400000x129_S129x64_S400000x64_1_0_0_1_n_n none A W (ix2 q j)
      = ∑ k : Fin 129, A (ix2 q k) * W (ix2 k j) :=
  StackMember.dotGeneral_plain_apply (m := 400000) (k := 129) (n := 64) none A W q j
theorem outDot (A : FVec Ideal S400000x64 .f32) (W : FVec Ideal S64x1 .f32) (q : Fin 400000) :
    Host.dotGeneral dot_S400000x64_S64x1_S400000x1_1_0_0_1_n_n none A W (ix2 q (0 : Fin 1))
      = ∑ k : Fin 64, A (ix2 q k) * W (ix2 k (0 : Fin 1)) :=
  StackMember.dotGeneral_plain_apply (m := 400000) (k := 64) (n := 1) none A W q 0

theorem splatAt (w : BitVec FTy.f32.bits) (i : S400000x64.Idx) :
    broadcastInDim S400000x64 ![] bcast_S_S400000x64 (constant (F := Ideal) S_ .f32 w) i = Ideal.ofBits .f32 w :=
  broadcastInDim_apply ![] bcast_S_S400000x64 (constant (F := Ideal) S_ .f32 w) i ix0 (fun a => a.elim0)

theorem eluScalar (x : EReal) :
    Scalar.select (Ideal.cmp .ogt x (Ideal.ofBits .f32 0x00000000#32)) x
      (Ideal.ofBits .f32 0x3F800000#32
        * (Ideal.exp (Scalar.select (Ideal.cmp .ogt x (Ideal.ofBits .f32 0x00000000#32)) (Ideal.ofBits .f32 0x00000000#32) x) - 1))
      = Cert.Spec.elu x := by
  unfold Cert.Spec.elu Scalar.select
  by_cases h : Ideal.cmp .ogt x (Ideal.ofBits .f32 0x00000000#32) = 1
  · simp only [if_pos h]
  · simp only [if_neg h, oneWord, one_mul]

theorem refEluAt (x : FVec Ideal S400000x64 .f32) (i : S400000x64.Idx) : refElu x i = Cert.Spec.elu (x i) := by
  unfold refElu
  rw [select_apply, cmpf_apply, mulf_apply, splatAt, splatAt]
  exact eluScalar (x i)

theorem biasAt (b1 : FVec Ideal S64 .f32) (hr : S64.ShapeCasts S1x64) (q : Fin 400000) (j : Fin 64) :
    broadcastInDim S400000x64 ![0, 1] bcast_S1x64_S400000x64_0_1 (broadcastInDim S1x64 ![1] bcast_S64_S1x64_1 b1) (ix2 q j)
      = shapeCast S1x64 b1 hr (ix2 (0 : Fin 1) j) := by
  refine (broadcastInDim_apply ![0, 1] bcast_S1x64_S400000x64_0_1 _ (ix2 q j) (ix2 (0 : Fin 1) j) (fun a => ?_)).trans ?_
  · match a with
    | ⟨0, _⟩ => rfl
    | ⟨1, _⟩ => rfl
  · refine (broadcastInDim_apply ![1] bcast_S64_S1x64_1 b1 (ix2 (0 : Fin 1) j) (ix1 j) (fun a => ?_)).trans ?_
    · match a with
      | ⟨0, _⟩ => rfl
    · exact (shapeCast_a_1a_apply b1 hr 0 j).symm

theorem stackAt (a b : FVec Ideal S200000x64 .f32) (q : Fin 400000) (k : Fin 64) :
    concatenate S400000x64 0 [⟨S200000x64, a⟩, ⟨S200000x64, b⟩] concatenates_S200000x64_S200000x64_S400000x64_d0 (ix2 q k)
      = if hq : q.val < 200000 then a (ix2 (⟨q.val, hq⟩ : Fin 200000) k)
        else b (ix2 (⟨q.val - 200000, by have := q.isLt; omega⟩ : Fin 200000) k) := by
  split
  · rename_i hq
    exact concatenate_pair_apply_left 0 a b concatenates_S200000x64_S200000x64_S400000x64_d0 (ix2 q k) rfl
      (ix2 (⟨q.val, hq⟩ : Fin 200000) k) (fun c => by match c with | ⟨0, _⟩ => rfl | ⟨1, _⟩ => rfl)
  · rename_i hq
    exact concatenate_pair_apply_right 0 a b concatenates_S200000x64_S200000x64_S400000x64_d0 (ix2 q k) rfl rfl
      (ix2 (⟨q.val - 200000, by have := q.isLt; omega⟩ : Fin 200000) k)
      (fun c hc => by match c with | ⟨0, _⟩ => exact absurd rfl hc | ⟨1, _⟩ => rfl)
      (by show q.val - 200000 + 200000 = q.val; omega)

theorem catLeftAt (u p n : FVec Ideal S200000x64 .f32) (T : FVec Ideal S400000 .f32) (q : Fin 400000) (k : Fin 64) :
    refCat u p n T (ix2 q (⟨k.val, by omega⟩ : Fin 129))
      = concatenate S400000x64 0 [⟨S200000x64, u⟩, ⟨S200000x64, u⟩] concatenates_S200000x64_S200000x64_S400000x64_d0 (ix2 q k) := by
  unfold refCat
  exact concatenate_apply_piece (t := S400000x129) 1 _ _ (ix2 q (⟨k.val, by omega⟩ : Fin 129)) 0 (by show (0 : Nat) < 3; decide) S400000x64 _ rfl rfl 0 rfl
    (ix2 q k) (fun c hc => by match c with | ⟨0, _⟩ => rfl | ⟨1, _⟩ => exact absurd rfl hc) (Nat.zero_add _)

theorem catMidAt (u p n : FVec Ideal S200000x64 .f32) (T : FVec Ideal S400000 .f32) (q : Fin 400000) (k : Fin 64) :
    refCat u p n T (ix2 q (⟨64 + k.val, by omega⟩ : Fin 129))
      = concatenate S400000x64 0 [⟨S200000x64, p⟩, ⟨S200000x64, n⟩] concatenates_S200000x64_S200000x64_S400000x64_d0 (ix2 q k) := by
  unfold refCat
  exact concatenate_apply_piece (t := S400000x129) 1 _ _ (ix2 q (⟨64 + k.val, by omega⟩ : Fin 129)) 1 (by show (1 : Nat) < 3; decide) S400000x64 _ rfl rfl 64 rfl
    (ix2 q k) (fun c hc => by match c with | ⟨0, _⟩ => rfl | ⟨1, _⟩ => exact absurd rfl hc) rfl

theorem catLastAt (u p n : FVec Ideal S200000x64 .f32) (T : FVec Ideal S400000 .f32) (q : Fin 400000) :
    refCat u p n T (ix2 q (⟨128, by omega⟩ : Fin 129)) = T (ix1 q) := by
  unfold refCat
  refine (concatenate_apply_piece (t := S400000x129) 1 _ _ (ix2 q (⟨128, by omega⟩ : Fin 129)) 2 (by show (2 : Nat) < 3; decide) S400000x1 _ rfl rfl 128 rfl
    (ix2 q (0 : Fin 1)) (fun c hc => by match c with | ⟨0, _⟩ => rfl | ⟨1, _⟩ => exact absurd rfl hc) rfl).trans ?_
  exact broadcastInDim_apply ![0] bcast_S400000_S400000x1_0 T (ix2 q (0 : Fin 1)) (ix1 q)
    (fun a => by match a with | ⟨0, _⟩ => rfl)

theorem w1TopAt (W1 : FVec Ideal S129x64 .f32) (hs : S129x64.Slices ![0, 0] (⟨2, ![64, 64]⟩ : Shape)) (k j : Fin 64) :
    extractStridedSlice (⟨2, ![64, 64]⟩ : Shape) ![0, 0] W1 hs (ix2 k j) = W1 (ix2 (⟨k.val, by omega⟩ : Fin 129) j) :=
  extractStridedSlice_apply ![0, 0] W1 hs (ix2 k j) (ix2 (⟨k.val, by omega⟩ : Fin 129) j)
    (fun a => by match a with | ⟨0, _⟩ => exact (Nat.zero_add _).symm | ⟨1, _⟩ => exact (Nat.zero_add _).symm)

theorem w1MidAt (W1 : FVec Ideal S129x64 .f32) (hs : S129x64.Slices ![64, 0] (⟨2, ![64, 64]⟩ : Shape)) (k j : Fin 64) :
    extractStridedSlice (⟨2, ![64, 64]⟩ : Shape) ![64, 0] W1 hs (ix2 k j) = W1 (ix2 (⟨64 + k.val, by omega⟩ : Fin 129) j) :=
  extractStridedSlice_apply ![64, 0] W1 hs (ix2 k j) (ix2 (⟨64 + k.val, by omega⟩ : Fin 129) j)
    (fun a => by match a with | ⟨0, _⟩ => rfl | ⟨1, _⟩ => exact (Nat.zero_add _).symm)

theorem w1LastAt (W1 : FVec Ideal S129x64 .f32) (hs : S129x64.Slices ![128, 0] S1x64) (j : Fin 64) :
    extractStridedSlice S1x64 ![128, 0] W1 hs (ix2 (0 : Fin 1) j) = W1 (ix2 (⟨128, by omega⟩ : Fin 129) j) :=
  extractStridedSlice_apply ![128, 0] W1 hs (ix2 (0 : Fin 1) j) (ix2 (⟨128, by omega⟩ : Fin 129) j)
    (fun a => by match a with | ⟨0, _⟩ => rfl | ⟨1, _⟩ => exact (Nat.zero_add _).symm)

theorem colCastAt (X : FVec Ideal S400000x1 .f32) (q : Fin 400000) :
    shapeCast S400000 X shapeCasts_S400000x1_S400000 (ix1 q) = X (ix2 q (0 : Fin 1)) :=
  shapeCast_apply X shapeCasts_S400000x1_S400000 (ix1 q) (ix2 q (0 : Fin 1)) (by
    rw [Shape.rowMajor_val_two, Shape.rowMajor_val_one]
    show q.val * 1 + 0 = q.val
    omega)

theorem refHidAt (u p n z : FVec Ideal S200000x64 .f32) (T : FVec Ideal S400000 .f32) (W1 : FVec Ideal S129x64 .f32) (b1 : FVec Ideal S64 .f32)
    (hs0 : S129x64.Slices ![0, 0] (⟨2, ![64, 64]⟩ : Shape)) (hs1 : S129x64.Slices ![64, 0] (⟨2, ![64, 64]⟩ : Shape))
    (hs2 : S129x64.Slices ![128, 0] S1x64) (hr : S64.ShapeCasts S1x64) (q : Fin 400000) (r : Fin 200000) (j : Fin 64)
    (hu : ∀ k : Fin 64, concatenate S400000x64 0 [⟨S200000x64, u⟩, ⟨S200000x64, u⟩] concatenates_S200000x64_S200000x64_S400000x64_d0 (ix2 q k)
      = u (ix2 r k))
    (hz : ∀ k : Fin 64, concatenate S400000x64 0 [⟨S200000x64, p⟩, ⟨S200000x64, n⟩] concatenates_S200000x64_S200000x64_S400000x64_d0 (ix2 q k)
      = z (ix2 r k)) :
    refHid u p n T W1 b1 (ix2 q j)
      = Cert.Spec.hidAt u z (T (ix1 q)) (extractStridedSlice (⟨2, ![64, 64]⟩ : Shape) ![0, 0] W1 hs0)
          (extractStridedSlice (⟨2, ![64, 64]⟩ : Shape) ![64, 0] W1 hs1) (extractStridedSlice S1x64 ![128, 0] W1 hs2)
          (shapeCast S1x64 b1 hr) r j := by
  unfold refHid Cert.Spec.hidAt
  rw [addf_apply, hidDot, sumCut, biasAt b1 hr]
  refine congrArg₂ (· + ·) (congrArg₂ (· + ·) (congrArg₂ (· + ·)
    (Finset.sum_congr rfl fun k _ => ?_) (Finset.sum_congr rfl fun k _ => ?_)) ?_) rfl
  · rw [catLeftAt, hu, w1TopAt]
  · rw [catMidAt, hz, w1MidAt]
  · rw [catLastAt, w1LastAt]

theorem refDecodeOf (u p n z : FVec Ideal S200000x64 .f32) (T : FVec Ideal S400000 .f32) (W1 : FVec Ideal S129x64 .f32) (b1 : FVec Ideal S64 .f32)
    (W2 : FVec Ideal S64x1 .f32)
    (hs0 : S129x64.Slices ![0, 0] (⟨2, ![64, 64]⟩ : Shape)) (hs1 : S129x64.Slices ![64, 0] (⟨2, ![64, 64]⟩ : Shape))
    (hs2 : S129x64.Slices ![128, 0] S1x64) (hr : S64.ShapeCasts S1x64) (q : Fin 400000) (r : Fin 200000)
    (hu : ∀ k : Fin 64, concatenate S400000x64 0 [⟨S200000x64, u⟩, ⟨S200000x64, u⟩] concatenates_S200000x64_S200000x64_S400000x64_d0 (ix2 q k)
      = u (ix2 r k))
    (hz : ∀ k : Fin 64, concatenate S400000x64 0 [⟨S200000x64, p⟩, ⟨S200000x64, n⟩] concatenates_S200000x64_S200000x64_S400000x64_d0 (ix2 q k)
      = z (ix2 r k)) :
    refDecode u p n T W1 b1 W2 (ix1 q)
      = Cert.Spec.decAt u z (T (ix1 q)) (extractStridedSlice (⟨2, ![64, 64]⟩ : Shape) ![0, 0] W1 hs0)
          (extractStridedSlice (⟨2, ![64, 64]⟩ : Shape) ![64, 0] W1 hs1) (extractStridedSlice S1x64 ![128, 0] W1 hs2)
          (shapeCast S1x64 b1 hr) W2 r := by
  unfold refDecode Cert.Spec.decAt
  rw [colCastAt, outDot]
  refine Finset.sum_congr rfl fun j _ => ?_
  rw [refEluAt, refHidAt u p n z T W1 b1 hs0 hs1 hs2 hr q r j hu hz]

theorem refDecode_at (u p n : FVec Ideal S200000x64 .f32) (T : FVec Ideal S400000 .f32) (W1 : FVec Ideal S129x64 .f32) (b1 : FVec Ideal S64 .f32)
    (W2 : FVec Ideal S64x1 .f32)
    (hs0 : S129x64.Slices ![0, 0] (⟨2, ![64, 64]⟩ : Shape)) (hs1 : S129x64.Slices ![64, 0] (⟨2, ![64, 64]⟩ : Shape))
    (hs2 : S129x64.Slices ![128, 0] S1x64) (hr : S64.ShapeCasts S1x64) (q : Fin 400000) :
    refDecode u p n T W1 b1 W2 (ix1 q) =
      if hq : q.val < 200000 then
        Cert.Spec.decAt u p (T (ix1 q)) (extractStridedSlice (⟨2, ![64, 64]⟩ : Shape) ![0, 0] W1 hs0)
          (extractStridedSlice (⟨2, ![64, 64]⟩ : Shape) ![64, 0] W1 hs1) (extractStridedSlice S1x64 ![128, 0] W1 hs2)
          (shapeCast S1x64 b1 hr) W2 ⟨q.val, hq⟩
      else
        Cert.Spec.decAt u n (T (ix1 q)) (extractStridedSlice (⟨2, ![64, 64]⟩ : Shape) ![0, 0] W1 hs0)
          (extractStridedSlice (⟨2, ![64, 64]⟩ : Shape) ![64, 0] W1 hs1) (extractStridedSlice S1x64 ![128, 0] W1 hs2)
          (shapeCast S1x64 b1 hr) W2 ⟨q.val - 200000, by have := q.isLt; omega⟩ := by
  split
  · rename_i hq
    refine refDecodeOf u p n p T W1 b1 W2 hs0 hs1 hs2 hr q ⟨q.val, hq⟩ (fun k => ?_) (fun k => ?_)
    · rw [stackAt, dif_pos hq]
    · rw [stackAt, dif_pos hq]
  · rename_i hq
    refine refDecodeOf u p n n T W1 b1 W2 hs0 hs1 hs2 hr q ⟨q.val - 200000, by have := q.isLt; omega⟩ (fun k => ?_) (fun k => ?_)
    · rw [stackAt, dif_neg hq]
    · rw [stackAt, dif_neg hq]

end Cert.ReferenceIdeal.Hand

end
-- ==== Proof.KI.Val2a.lean ====
-- The decoder body's stored columns at an index: Σ_j elu(h_j)·W2[j] with h_j = Σ_k u[p,k]·W1a[k,j] + Σ_k z[p,k]·W1b[k,j] + t[p]·w_t[j] + b1[j].
import proofs.«400336_j15375982920184_3_alg».proof.Proof.Gen.KernelIdeal.Skeleton
import proofs.«400336_j15375982920184_3_alg».proof.Proof.Spec
import Idealize.ShloMosaic.Lib.Pipeline.Value
import Idealize.ShloMosaic.Lib.ValueIdx
import Idealize.ShloMosaic.PureOps.Ideal.Laws
import Idealize.ShloMosaic.Lib.StackMember

set_option maxRecDepth 16384

open scoped BigOperators

noncomputable section

namespace Cert.KernelIdeal.Hand

open Idealize.ShloMosaic Idealize.ShloMosaic.ValueIdx
open Cert.KernelIdeal Cert.KernelIdeal.Gen

-- The two products into the zero splat, at an index: the row against the column.
theorem matmulA_apply (lhs : FVec Ideal S5000x64 .f32) (rhs : FVec Ideal S64x64 .f32) (p : Fin 5000) (j : Fin 64) :
    matmul dot_S5000x64_S64x64_S5000x64_1_0_0_1_n_n none lhs rhs (constant (F := Ideal) S5000x64 .f32 0x00000000#32) (ix2 p j)
      = ∑ k : Fin 64, lhs (ix2 p k) * rhs (ix2 k j) :=
  (congrFun (matmul_zero_eq_dotGeneral _ none lhs rhs) (ix2 p j)).trans
    (StackMember.dotGeneral_plain_apply (m := 5000) (k := 64) (n := 64) none lhs rhs p j)
theorem matmulB_apply (lhs : FVec Ideal S5000x64 .f32) (rhs : FVec Ideal S64x1 .f32) (p : Fin 5000) (q : Fin 1) :
    matmul dot_S5000x64_S64x1_S5000x1_1_0_0_1_n_n none lhs rhs (constant (F := Ideal) S5000x1 .f32 0x00000000#32) (ix2 p q)
      = ∑ k : Fin 64, lhs (ix2 p k) * rhs (ix2 k q) :=
  (congrFun (matmul_zero_eq_dotGeneral _ none lhs rhs) (ix2 p q)).trans
    (StackMember.dotGeneral_plain_apply (m := 5000) (k := 64) (n := 1) none lhs rhs p q)

theorem bcastCol_apply {α : Type} (x : S5000x1.Idx → α) (h : S5000x1.Broadcasts S5000x64) (p : Fin 5000) (j : Fin 64) :
    broadcastTo S5000x64 x h (ix2 p j) = x (ix2 p 0) :=
  broadcastTo_apply x h (ix2 p j) (ix2 p 0) (fun a => by
    match a with
    | ⟨0, _⟩ => rfl
    | ⟨1, _⟩ => rfl)

theorem bcastRow_apply {α : Type} (x : S1x64.Idx → α) (h : S1x64.Broadcasts S5000x64) (p : Fin 5000) (j : Fin 64) :
    broadcastTo S5000x64 x h (ix2 p j) = x (ix2 0 j) :=
  broadcastTo_apply x h (ix2 p j) (ix2 0 j) (fun a => by
    match a with
    | ⟨0, _⟩ => rfl
    | ⟨1, _⟩ => rfl)

theorem exp_apply {s : Shape} {φ : FTy} (x : FVec Ideal s φ) (i : s.Idx) : exp x i = Ideal.exp (x i) := rfl

def hidRow (ur zr : Fin 64 → EReal) (t : EReal) (w1a w1b : Cert.Spec.Arr 64 64) (w1t b1 : Cert.Spec.Arr 1 64) (j : Fin 64) : EReal :=
  (((∑ k : Fin 64, ur k * w1a (ix2 k j)) + (∑ k : Fin 64, zr k * w1b (ix2 k j))) + t * w1t (ix2 0 j)) + b1 (ix2 0 j)

def decRow (ur zr : Fin 64 → EReal) (t : EReal) (w1a w1b : Cert.Spec.Arr 64 64) (w1t b1 : Cert.Spec.Arr 1 64) (w2 : Cert.Spec.Arr 64 1) : EReal :=
  ∑ j : Fin 64, Cert.Spec.elu (hidRow ur zr t w1a w1b w1t b1 j) * w2 (ix2 j 0)

theorem decAt_eq_decRow (u z : Cert.Spec.Arr 200000 64) (t : EReal) (w1a w1b : Cert.Spec.Arr 64 64) (w1t b1 : Cert.Spec.Arr 1 64)
    (w2 : Cert.Spec.Arr 64 1) (r : Fin 200000) :
    Cert.Spec.decAt u z t w1a w1b w1t b1 w2 r = decRow (fun k => u (ix2 r k)) (fun k => z (ix2 r k)) t w1a w1b w1t b1 w2 := rfl

-- A row block's pre-activations: A + Z·W + T·w_t + b1, entry by entry.
def preOf (A Z : FVec Ideal S5000x64 .f32) (W : FVec Ideal S64x64 .f32) (T : FVec Ideal S5000x1 .f32) (w1t b1 : FVec Ideal S1x64 .f32) :
    FVec Ideal S5000x64 .f32 :=
  addf (addf (addf A (matmul dot_S5000x64_S64x64_S5000x64_1_0_0_1_n_n none Z W (constant (F := Ideal) S5000x64 .f32 0x00000000#32)))
    (mulf (broadcastTo S5000x64 T broadcasts_S5000x1_S5000x64) (broadcastTo S5000x64 w1t broadcasts_S1x64_S5000x64)))
    (broadcastTo S5000x64 b1 broadcasts_S1x64_S5000x64)

def colOf (A Z : FVec Ideal S5000x64 .f32) (W : FVec Ideal S64x64 .f32) (T : FVec Ideal S5000x1 .f32) (w1t b1 : FVec Ideal S1x64 .f32)
    (w2 : FVec Ideal S64x1 .f32) : FVec Ideal S5000x1 .f32 :=
  matmul dot_S5000x64_S64x1_S5000x1_1_0_0_1_n_n none
    (select
      (cmpf .ogt
        (preOf A Z W T w1t b1)
        (broadcast S5000x64 (Scalar.ofBits (F := Ideal) .f32 0x00000000#32)))
      (preOf A Z W T w1t b1)
      (subf
        (exp (preOf A Z W T w1t b1))
        (broadcast S5000x64 (Scalar.ofBits (F := Ideal) .f32 0x3F800000#32))))
    w2 (constant (F := Ideal) S5000x1 .f32 0x00000000#32)

theorem pre_apply (A Z : FVec Ideal S5000x64 .f32) (W : FVec Ideal S64x64 .f32) (T : FVec Ideal S5000x1 .f32) (w1t b1 : FVec Ideal S1x64 .f32)
    (p : Fin 5000) (j : Fin 64) :
    (preOf A Z W T w1t b1) (ix2 p j)
      = ((A (ix2 p j) + ∑ k : Fin 64, Z (ix2 p k) * W (ix2 k j)) + T (ix2 p 0) * w1t (ix2 0 j)) + b1 (ix2 0 j) := by
  unfold preOf
  rw [addf_apply, addf_apply, addf_apply, mulf_apply, matmulA_apply, bcastCol_apply, bcastRow_apply, bcastRow_apply]

theorem colOf_apply (A Z : FVec Ideal S5000x64 .f32) (W : FVec Ideal S64x64 .f32) (T : FVec Ideal S5000x1 .f32) (w1t b1 : FVec Ideal S1x64 .f32)
    (w2 : FVec Ideal S64x1 .f32) (p : Fin 5000) (q : Fin 1) :
    colOf A Z W T w1t b1 w2 (ix2 p q)
      = ∑ j : Fin 64, Cert.Spec.elu (((A (ix2 p j) + ∑ k : Fin 64, Z (ix2 p k) * W (ix2 k j)) + T (ix2 p 0) * w1t (ix2 0 j)) + b1 (ix2 0 j))
          * w2 (ix2 j q) := by
  unfold colOf
  rw [matmulB_apply]
  refine Finset.sum_congr rfl fun j _ => ?_
  refine congrArg (· * w2 (ix2 j q)) ?_
  rw [select_apply, cmpf_apply, subf_apply, exp_apply, broadcast_apply, broadcast_apply, pre_apply]
  rfl

theorem colOf_dec (U Z : FVec Ideal S5000x64 .f32) (W1a W1b : FVec Ideal S64x64 .f32) (T : FVec Ideal S5000x1 .f32)
    (w1t b1 : FVec Ideal S1x64 .f32) (w2 : FVec Ideal S64x1 .f32) (p : Fin 5000) (q : Fin 1) :
    colOf (matmul dot_S5000x64_S64x64_S5000x64_1_0_0_1_n_n none U W1a (constant (F := Ideal) S5000x64 .f32 0x00000000#32)) Z W1b T w1t b1 w2 (ix2 p q)
      = decRow (fun k => U (ix2 p k)) (fun k => Z (ix2 p k)) (T (ix2 p 0)) W1a W1b w1t b1 w2 := by
  obtain rfl : q = 0 := Subsingleton.elim _ _
  rw [colOf_apply]
  unfold decRow hidRow
  refine Finset.sum_congr rfl fun j _ => ?_
  rw [matmulA_apply]

theorem pay8_eq (v0 : FVec Ideal S5000x64 .f32) (v2 v4 : FVec Ideal S64x64 .f32) (v6 v8 : FVec Ideal S1x64 .f32) (v10 : FVec Ideal S64x1 .f32)
    (v12 : FVec Ideal S5000x64 .f32) (v16 : FVec Ideal S5000x1 .f32) :
    k2_pay8 (F := Ideal) v0 v2 v4 v6 v8 v10 v12 v16
      = colOf (matmul dot_S5000x64_S64x64_S5000x64_1_0_0_1_n_n none v0 v2 (constant (F := Ideal) S5000x64 .f32 0x00000000#32)) v12 v4 v16 v6 v8 v10 := by
  unfold k2_pay8 k2_pay5 k2_pay6 k2_pay2 k2_pay3 k2_pay4 colOf preOf
  simp only [shapeCast_self]

theorem pay5_eq (v0 : FVec Ideal S5000x64 .f32) (v2 : FVec Ideal S64x64 .f32) :
    k2_pay5 (F := Ideal) v0 v2 = matmul dot_S5000x64_S64x64_S5000x64_1_0_0_1_n_n none v0 v2 (constant (F := Ideal) S5000x64 .f32 0x00000000#32) := by
  unfold k2_pay5
  simp only [shapeCast_self]

theorem pay2_eq (v : FVec Ideal S64x64 .f32) : k2_pay2 (F := Ideal) v = v := by unfold k2_pay2; simp only [shapeCast_self]
theorem pay3_eq (v : FVec Ideal S1x64 .f32) : k2_pay3 (F := Ideal) v = v := by unfold k2_pay3; simp only [shapeCast_self]
theorem pay4_eq (v : FVec Ideal S1x64 .f32) : k2_pay4 (F := Ideal) v = v := by unfold k2_pay4; simp only [shapeCast_self]
theorem pay6_eq (v : FVec Ideal S5000x64 .f32) : k2_pay6 (F := Ideal) v = v := by unfold k2_pay6; simp only [shapeCast_self]
theorem pay7_eq (v : FVec Ideal S5000x64 .f32) : k2_pay7 (F := Ideal) v = v := by unfold k2_pay7; simp only [shapeCast_self]
theorem pay11_eq (v : FVec Ideal S5000x1 .f32) : k2_pay11 (F := Ideal) v = v := by unfold k2_pay11; simp only [shapeCast_self]

theorem pay9_eq (v5 : FVec Ideal S64x64 .f32) (v7 v9 : FVec Ideal S1x64 .f32) (v10 : FVec Ideal S64x1 .f32) (v11 v15 : FVec Ideal S5000x64 .f32)
    (v34 : FVec Ideal S5000x1 .f32) :
    k2_pay9 (F := Ideal) v5 v7 v9 v10 v11 v15 v34 = colOf v11 v15 v5 v34 v7 v9 v10 := by
  unfold k2_pay9 colOf preOf
  simp only [shapeCast_self]

theorem pay10_eq (v5 : FVec Ideal S64x64 .f32) (v7 v9 : FVec Ideal S1x64 .f32) (v10 : FVec Ideal S64x1 .f32) (v11 v13 : FVec Ideal S5000x64 .f32)
    (v52 : FVec Ideal S5000x1 .f32) :
    k2_pay10 (F := Ideal) v5 v7 v9 v10 v11 v13 v52 = colOf v11 v13 v5 v52 v7 v9 v10 := by
  unfold k2_pay10 colOf preOf
  simp only [shapeCast_self]

theorem pay1_eq (v5 : FVec Ideal S64x64 .f32) (v7 v9 : FVec Ideal S1x64 .f32) (v10 : FVec Ideal S64x1 .f32) (v11 v15 : FVec Ideal S5000x64 .f32)
    (v71 : FVec Ideal S5000x1 .f32) :
    k2_pay1 (F := Ideal) v5 v7 v9 v10 v11 v15 v71 (constant (F := Ideal) S5000x64 .f32 0x00000000#32) = colOf v11 v15 v5 v71 v7 v9 v10 := by
  unfold k2_pay1 colOf preOf
  rfl

theorem col0_apply (x0 x1 : FVec Ideal S5000x64 .f32) (x4 x5 : FVec Ideal S64x64 .f32) (x6 x7 : FVec Ideal S1x64 .f32) (x8 : FVec Ideal S64x1 .f32)
    (T : FVec Ideal S5000x1 .f32) (p : Fin 5000) (q : Fin 1) :
    k2_pay8 (F := Ideal) x0 x4 x5 x6 x7 x8 x1 T (ix2 p q)
      = decRow (fun k => x0 (ix2 p k)) (fun k => x1 (ix2 p k)) (T (ix2 p 0)) x4 x5 x6 x7 x8 := by
  rw [pay8_eq]
  exact colOf_dec x0 x1 x4 x5 T x6 x7 x8 p q

theorem col1_apply (x0 x2 : FVec Ideal S5000x64 .f32) (x4 x5 : FVec Ideal S64x64 .f32) (x6 x7 : FVec Ideal S1x64 .f32) (x8 : FVec Ideal S64x1 .f32)
    (T : FVec Ideal S5000x1 .f32) (p : Fin 5000) (q : Fin 1) :
    k2_pay9 (F := Ideal) (k2_pay2 x5) (k2_pay3 x6) (k2_pay4 x7) x8 (k2_pay5 x0 x4) (k2_pay7 x2) T (ix2 p q)
      = decRow (fun k => x0 (ix2 p k)) (fun k => x2 (ix2 p k)) (T (ix2 p 0)) x4 x5 x6 x7 x8 := by
  rw [pay2_eq, pay3_eq, pay4_eq, pay5_eq, pay7_eq, pay9_eq]
  exact colOf_dec x0 x2 x4 x5 T x6 x7 x8 p q

theorem col2_apply (x0 x1 : FVec Ideal S5000x64 .f32) (x4 x5 : FVec Ideal S64x64 .f32) (x6 x7 : FVec Ideal S1x64 .f32) (x8 : FVec Ideal S64x1 .f32)
    (T : FVec Ideal S5000x1 .f32) (p : Fin 5000) (q : Fin 1) :
    k2_pay10 (F := Ideal) (k2_pay2 x5) (k2_pay3 x6) (k2_pay4 x7) x8 (k2_pay5 x0 x4) (k2_pay6 x1) T (ix2 p q)
      = decRow (fun k => x0 (ix2 p k)) (fun k => x1 (ix2 p k)) (T (ix2 p 0)) x4 x5 x6 x7 x8 := by
  rw [pay2_eq, pay3_eq, pay4_eq, pay5_eq, pay6_eq, pay10_eq]
  exact colOf_dec x0 x1 x4 x5 T x6 x7 x8 p q

theorem col3_apply (x0 x2 : FVec Ideal S5000x64 .f32) (x4 x5 : FVec Ideal S64x64 .f32) (x6 x7 : FVec Ideal S1x64 .f32) (x8 : FVec Ideal S64x1 .f32)
    (T : FVec Ideal S5000x1 .f32) (p : Fin 5000) (q : Fin 1) :
    k2_pay1 (F := Ideal) (k2_pay2 x5) (k2_pay3 x6) (k2_pay4 x7) x8 (k2_pay5 x0 x4) (k2_pay7 x2) (k2_pay11 T)
        (constant (F := Ideal) S5000x64 .f32 0x00000000#32) (ix2 p q)
      = decRow (fun k => x0 (ix2 p k)) (fun k => x2 (ix2 p k)) (T (ix2 p 0)) x4 x5 x6 x7 x8 := by
  rw [pay2_eq, pay3_eq, pay4_eq, pay5_eq, pay7_eq, pay11_eq, pay1_eq]
  exact colOf_dec x0 x2 x4 x5 T x6 x7 x8 p q

theorem colRect_emb (c : Nat) (hc : c < 4) (inb : ∀ a, (![0, c] : Fin 2 → Nat) a + S5000x1.size a ≤ S5000x4.size a) (p : Fin 5000) (q : Fin 1) :
    (Rect.unit (s := S5000x4) ![0, c] S5000x1.size inb).emb (ix2 p q) = ix2 p (⟨c, hc⟩ : Fin 4) := by
  funext a
  apply Fin.ext
  have hq : q.val = 0 := by have := q.isLt; omega
  match a with
  | ⟨0, _⟩ => show 0 + 1 * p.val = p.val; omega
  | ⟨1, _⟩ => show c + 1 * q.val = c; omega

theorem colRect_ld (x3 : FVec Ideal S5000x4 .f32) (c : Nat) (hc : c < 4) (inb : ∀ a, (![0, c] : Fin 2 → Nat) a + S5000x1.size a ≤ S5000x4.size a)
    (p : Fin 5000) (q : Fin 1) :
    View.ld (Val := Elt Ideal) (e' := .f32) x3 (Rect.unit (s := S5000x4) ![0, c] S5000x1.size inb) (ix2 p q) = x3 (ix2 p (⟨c, hc⟩ : Fin 4)) :=
  congrArg x3 (colRect_emb c hc inb p q)

theorem colRect_mem (c : Nat) (inb : ∀ a, (![0, c] : Fin 2 → Nat) a + S5000x1.size a ≤ S5000x4.size a) (p : Fin 5000) (col : Fin 4) :
    ix2 p col ∈ (Rect.unit (s := S5000x4) ![0, c] S5000x1.size inb).set ↔ col.val = c := by
  rw [Rect.mem_set_unit]
  constructor
  · intro h
    have h1 : c ≤ col.val ∧ col.val < c + 1 := h 1
    omega
  · intro h a
    match a with
    | ⟨0, _⟩ => show 0 ≤ p.val ∧ p.val < 0 + 5000; have := p.isLt; omega
    | ⟨1, _⟩ => show c ≤ col.val ∧ col.val < c + 1; omega

end Cert.KernelIdeal.Hand

end
-- ==== Proof.KI.Val2.lean ====
-- What region 2 leaves: row r of its output holds the decoder's value for pair r in each of the four columns; forty blocks tile the rows.
import proofs.«400336_j15375982920184_3_alg».proof.Proof.KI.Region2
import proofs.«400336_j15375982920184_3_alg».proof.Proof.Spec
import proofs.«400336_j15375982920184_3_alg».proof.Proof.KI.Val2a
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

section

variable (V : (c : Dev nD) → (b : Ref sig .tc) → Buf (Elt Ideal) ((c : Thread nD τ).loc b))

theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0) :=
  (by decide +kernel : ∀ t : Fin grid2.N, _)

theorem iblk2_0_apply (c : Dev nD) (t : Fin cfg2.N) (p : Fin 5000) (k : Fin 64) (r : Fin 200000) (hr : r.val = t.val * 5000 + p.val) :
    (iblk2 (F := Ideal) V c 0 t : Vec Ideal S5000x64 .f32) (ix2 p k) = (V c main_v61 : S200000x64.Idx → EReal) (ix2 r k) := by
  have e := idx_facts2 t
  have e0 : win2_0.index t (0 : Fin 2) = t.val := e.1.1
  have e1 : win2_0.index t (1 : Fin 2) = 0 := e.1.2
  unfold iblk2
  rw [View.read_apply]
  show V c main_v61 _ = V c main_v61 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

theorem iblk2_1_apply (c : Dev nD) (t : Fin cfg2.N) (p : Fin 5000) (k : Fin 64) (r : Fin 200000) (hr : r.val = t.val * 5000 + p.val) :
    (iblk2 (F := Ideal) V c 1 t : Vec Ideal S5000x64 .f32) (ix2 p k) = (V c main_v68 : S200000x64.Idx → EReal) (ix2 r k) := by
  have e := idx_facts2 t
  have e0 : win2_1.index t (0 : Fin 2) = t.val := e.2.1.1
  have e1 : win2_1.index t (1 : Fin 2) = 0 := e.2.1.2
  unfold iblk2
  rw [View.read_apply]
  show V c main_v68 _ = V c main_v68 _
  congr 1
  funext a
  apply Fin.ext
  match a with
  | ⟨0, _⟩ => show win2_1.index t (0 : Fin 2) * 5000 + 1 * p.val = r.val; rw [e0, hr]; omega
  | ⟨1, _⟩ => show win2_1.index t (1 : Fin 2) * 64 + 1 * k.val = k.val; rw [e1]; omega

theorem iblk2_2_apply (c : Dev nD) (t : Fin cfg2.N) (p : Fin 5000) (k : Fin 64) (r : Fin 200000) (hr : r.val = t.val * 5000 + p.val) :
    (iblk2 (F := Ideal) V c 2 t : Vec Ideal S5000x64 .f32) (ix2 p k) = (V c main_v75 : S200000x64.Idx → EReal) (ix2 r k) := by
  have e := idx_facts2 t
  have e0 : win2_2.index t (0 : Fin 2) = t.val := e.2.2.1.1
  have e1 : win2_2.index t (1 : Fin 2) = 0 := e.2.2.1.2
  unfold iblk2
  rw [View.read_apply]
  show V c main_v75 _ = V c main_v75 _
  congr 1
  funext a
  apply Fin.ext
  match a with
  | ⟨0, _⟩ => show win2_2.index t (0 : Fin 2) * 5000 + 1 * p.val = r.val; rw [e0, hr]; omega
  | ⟨1, _⟩ => show win2_2.index t (1 : Fin 2) * 64 + 1 * k.val = k.val; rw [e1]; omega

theorem iblk2_3_apply (c : Dev nD) (t : Fin cfg2.N) (p : Fin 5000) (k : Fin 4) (r : Fin 200000) (hr : r.val = t.val * 5000 + p.val) :
    (iblk2 (F := Ideal) V c 3 t : Vec Ideal S5000x4 .f32) (ix2 p k) = (V c main_v84 : S200000x4.Idx → EReal) (ix2 r k) := by
  have e := idx_facts2 t
  have e0 : win2_3.index t (0 : Fin 2) = t.val := e.2.2.2.1.1
  have e1 : win2_3.index t (1 : Fin 2) = 0 := e.2.2.2.1.2
  unfold iblk2
  rw [View.read_apply]
  show V c main_v84 _ = V c main_v84 _
  congr 1
  funext a
  apply Fin.ext
  match a with
  | ⟨0, _⟩ => show win2_3.index t (0 : Fin 2) * 5000 + 1 * p.val = r.val; rw [e0, hr]; omega
  | ⟨1, _⟩ => show win2_3.index t (1 : Fin 2) * 4 + 1 * k.val = k.val; rw [e1]; omega

theorem iblk2_4_eq (c : Dev nD) (t : Fin cfg2.N) :
    (iblk2 (F := Ideal) V c 4 t : Vec Ideal S64x64 .f32) = (V c main_v85 : S64x64.Idx → EReal) := by
  have e := idx_facts2 t
  have e0 : win2_4.index t (0 : Fin 2) = 0 := e.2.2.2.2.1.1
  have e1 : win2_4.index t (1 : Fin 2) = 0 := e.2.2.2.2.1.2
  funext y
  unfold iblk2
  rw [View.read_apply]
  show V c main_v85 _ = V c main_v85 y
  congr 1
  funext a
  apply Fin.ext
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

theorem iblk2_5_eq (c : Dev nD) (t : Fin cfg2.N) :
    (iblk2 (F := Ideal) V c 5 t : Vec Ideal S64x64 .f32) = (V c main_v86 : S64x64.Idx → EReal) := by
  have e := idx_facts2 t
  have e0 : win2_5.index t (0 : Fin 2) = 0 := e.2.2.2.2.2.1.1
  have e1 : win2_5.index t (1 : Fin 2) = 0 := e.2.2.2.2.2.1.2
  funext y
  unfold iblk2
  rw [View.read_apply]
  show V c main_v86 _ = V c main_v86 y
  congr 1
  funext a
  apply Fin.ext
  match a with
  | ⟨0, _⟩ => show win2_5.index t (0 : Fin 2) * 64 + 1 * (y 0).val = (y 0).val; rw [e0]; omega
  | ⟨1, _⟩ => show win2_5.index t (1 : Fin 2) * 64 + 1 * (y 1).val = (y 1).val; rw [e1]; omega

theorem iblk2_6_eq (c : Dev nD) (t : Fin cfg2.N) :
    (iblk2 (F := Ideal) V c 6 t : Vec Ideal S1x64 .f32) = (V c main_v87 : S1x64.Idx → EReal) := by
  have e := idx_facts2 t
  have e0 : win2_6.index t (0 : Fin 2) = 0 := e.2.2.2.2.2.2.1.1
  have e1 : win2_6.index t (1 : Fin 2) = 0 := e.2.2.2.2.2.2.1.2
  funext y
  unfold iblk2
  rw [View.read_apply]
  show V c main_v87 _ = V c main_v87 y
  congr 1
  funext a
  apply Fin.ext
  match a with
  | ⟨0, _⟩ => show win2_6.index t (0 : Fin 2) * 1 + 1 * (y 0).val = (y 0).val; rw [e0]; omega
  | ⟨1, _⟩ => show win2_6.index t (1 : Fin 2) * 64 + 1 * (y 1).val = (y 1).val; rw [e1]; omega

theorem iblk2_7_eq (c : Dev nD) (t : Fin cfg2.N) :
    (iblk2 (F := Ideal) V c 7 t : Vec Ideal S1x64 .f32) = (V c main_v88 : S1x64.Idx → EReal) := by
  have e := idx_facts2 t
  have e0 : win2_7.index t (0 : Fin 2) = 0 := e.2.2.2.2.2.2.2.1.1
  have e1 : win2_7.index t (1 : Fin 2) = 0 := e.2.2.2.2.2.2.2.1.2
  funext y
  unfold iblk2
  rw [View.read_apply]
  show V c main_v88 _ = V c main_v88 y
  congr 1
  funext a
  apply Fin.ext
  match a with
  | ⟨0, _⟩ => show win2_7.index t (0 : Fin 2) * 1 + 1 * (y 0).val = (y 0).val; rw [e0]; omega
  | ⟨1, _⟩ => show win2_7.index t (1 : Fin 2) * 64 + 1 * (y 1).val = (y 1).val; rw [e1]; omega

theorem iblk2_8_eq (c : Dev nD) (t : Fin cfg2.N) :
    (iblk2 (F := Ideal) V c 8 t : Vec Ideal S64x1 .f32) = (V c main_arg11 : S64x1.Idx → EReal) := by
  have e := idx_facts2 t
  have e0 : win2_8.index t (0 : Fin 2) = 0 := e.2.2.2.2.2.2.2.2.1.1
  have e1 : win2_8.index t (1 : Fin 2) = 0 := e.2.2.2.2.2.2.2.2.1.2
  funext y
  unfold iblk2
  rw [View.read_apply]
  show V c main_arg11 _ = V c main_arg11 y
  congr 1
  funext a
  apply Fin.ext
  match a with
  | ⟨0, _⟩ => show win2_8.index t (0 : Fin 2) * 64 + 1 * (y 0).val = (y 0).val; rw [e0]; omega
  | ⟨1, _⟩ => show win2_8.index t (1 : Fin 2) * 1 + 1 * (y 1).val = (y 1).val; rw [e1]; omega

theorem mem_blk2_9 (t : Fin cfg2.N) (i : S200000x4.Idx) :
    i ∈ ((cfg2.win 9).blk t).view.set ↔ ∀ a : Fin 2, win2_9.index t a * S5000x4.size a ≤ (i a).val ∧ (i a).val < win2_9.index t a * S5000x4.size a + S5000x4.size a := by
  show i ∈ ((View.whole main_v89).slice (win2_9.rect t)).set ↔ _
  rw [View.set_slice_whole, Rect.mem_set_unit]
  exact Iff.rfl

theorem cover2_arr (i : S200000x4.Idx) : ∃ t : Fin cfg2.N, (cfg2.win 9).flush t = true ∧ i ∈ ((cfg2.win 9).blk t).view.set := by
  have hi0 : (i 0).val < 200000 := (i 0).isLt
  have hi1 : (i 1).val < 4 := (i 1).isLt
  have hlt : (i 0).val / 5000 < cfg2.N := by rw [show cfg2.N = 40 from N_2]; omega
  obtain ⟨t, ht⟩ : ∃ t : Fin cfg2.N, t.val = (i 0).val / 5000 := ⟨⟨_, hlt⟩, rfl⟩
  refine ⟨t, flush2_9 t, ?_⟩
  rw [mem_blk2_9]
  have e := idx_facts2 t
  have e0 : win2_9.index t (0 : Fin 2) = t.val := e.2.2.2.2.2.2.2.2.2.1
  have e1 : win2_9.index t (1 : Fin 2) = 0 := e.2.2.2.2.2.2.2.2.2.2
  intro a
  match a with
  | ⟨0, _⟩ =>
    show win2_9.index t (0 : Fin 2) * 5000 ≤ (i 0).val ∧ (i 0).val < win2_9.index t (0 : Fin 2) * 5000 + 5000
    rw [e0, ht]; omega
  | ⟨1, _⟩ =>
    show win2_9.index t (1 : Fin 2) * 4 ≤ (i 1).val ∧ (i 1).val < win2_9.index t (1 : Fin 2) * 4 + 4
    rw [e1]; omega

theorem hz2 : (![0, 0] : Fin 2 → Nat) = fun _ => 0 := funext fun a => by fin_cases a <;> rfl

def blkVal (x0 x1 x2 : FVec Ideal S5000x64 .f32) (x3 : FVec Ideal S5000x4 .f32) (x4 x5 : FVec Ideal S64x64 .f32) (x6 x7 : FVec Ideal S1x64 .f32)
    (x8 : FVec Ideal S64x1 .f32) : S5000x4.Idx → EReal := fun y =>
  decRow (fun k => x0 (ix2 (y 0) k)) (fun k => (if (y 1).val % 2 = 0 then x1 else x2) (ix2 (y 0) k)) (x3 y) x4 x5 x6 x7 x8

theorem blkVal_even (x0 x1 x2 : FVec Ideal S5000x64 .f32) (x3 : FVec Ideal S5000x4 .f32) (x4 x5 : FVec Ideal S64x64 .f32) (x6 x7 : FVec Ideal S1x64 .f32)
    (x8 : FVec Ideal S64x1 .f32) (p : Fin 5000) (col : Fin 4) (h : col.val % 2 = 0) :
    blkVal x0 x1 x2 x3 x4 x5 x6 x7 x8 (ix2 p col)
      = decRow (fun k => x0 (ix2 p k)) (fun k => x1 (ix2 p k)) (x3 (ix2 p col)) x4 x5 x6 x7 x8 := by
  show decRow (fun k => x0 (ix2 p k)) (fun k => (if col.val % 2 = 0 then x1 else x2) (ix2 p k)) (x3 (ix2 p col)) x4 x5 x6 x7 x8 = _
  rw [if_pos h]

theorem blkVal_odd (x0 x1 x2 : FVec Ideal S5000x64 .f32) (x3 : FVec Ideal S5000x4 .f32) (x4 x5 : FVec Ideal S64x64 .f32) (x6 x7 : FVec Ideal S1x64 .f32)
    (x8 : FVec Ideal S64x1 .f32) (p : Fin 5000) (col : Fin 4) (h : col.val % 2 = 1) :
    blkVal x0 x1 x2 x3 x4 x5 x6 x7 x8 (ix2 p col)
      = decRow (fun k => x0 (ix2 p k)) (fun k => x2 (ix2 p k)) (x3 (ix2 p col)) x4 x5 x6 x7 x8 := by
  show decRow (fun k => x0 (ix2 p k)) (fun k => (if col.val % 2 = 0 then x1 else x2) (ix2 p k)) (x3 (ix2 p col)) x4 x5 x6 x7 x8 = _
  rw [if_neg (by omega)]

theorem out2_9_eq (x0 x1 x2 : FVec Ideal S5000x64 .f32) (x3 : FVec Ideal S5000x4 .f32) (x4 x5 : FVec Ideal S64x64 .f32) (x6 x7 : FVec Ideal S1x64 .f32)
    (x8 : FVec Ideal S64x1 .f32) (y : S5000x4.Idx) :
    out2_9 (F := Ideal) x0 x1 x2 x3 x4 x5 x6 x7 x8 y = blkVal x0 x1 x2 x3 x4 x5 x6 x7 x8 y := by
  unfold out2_9
  simp only [View.ld_unit_zero (S := S5000x64) hz2, View.ld_unit_zero (S := S64x64) hz2, View.ld_unit_zero (S := S1x64) hz2,
    View.ld_unit_zero (S := S64x1) hz2]
  refine View.canon_apply_of_pieces (Val := Elt Ideal) (e := .f32) (blkVal x0 x1 x2 x3 x4 x5 x6 x7 x8) _ ?_ y (cover2_9 _ _ _ _ y)
  intro pc hpc x
  simp only [List.mem_cons, List.not_mem_nil, or_false] at hpc
  rcases hpc with rfl | rfl | rfl | rfl
  · obtain ⟨p, q, rfl⟩ : ∃ (p : Fin 5000) (q : Fin 1), x = ix2 p q := ⟨x 0, x 1, eq_ix2 x⟩
    show k2_pay1 (F := Ideal) (k2_pay2 x5) (k2_pay3 x6) (k2_pay4 x7) x8 (k2_pay5 x0 x4) (k2_pay7 x2) (k2_pay11 (View.ld x3 r2c3))
        (constant (F := Ideal) S5000x64 .f32 0x00000000#32) (ix2 p q) = blkVal x0 x1 x2 x3 x4 x5 x6 x7 x8 (r2c3.emb (ix2 p q))
    rw [col3_apply, colRect_emb 3 (by decide) _ p q, colRect_ld x3 3 (by decide) _ p 0]
    exact (blkVal_odd x0 x1 x2 x3 x4 x5 x6 x7 x8 p ⟨3, by decide⟩ rfl).symm
  · obtain ⟨p, q, rfl⟩ : ∃ (p : Fin 5000) (q : Fin 1), x = ix2 p q := ⟨x 0, x 1, eq_ix2 x⟩
    show k2_pay10 (F := Ideal) (k2_pay2 x5) (k2_pay3 x6) (k2_pay4 x7) x8 (k2_pay5 x0 x4) (k2_pay6 x1) (View.ld x3 r2c2) (ix2 p q)
      = blkVal x0 x1 x2 x3 x4 x5 x6 x7 x8 (r2c2.emb (ix2 p q))
    rw [col2_apply, colRect_emb 2 (by decide) _ p q, colRect_ld x3 2 (by decide) _ p 0]
    exact (blkVal_even x0 x1 x2 x3 x4 x5 x6 x7 x8 p ⟨2, by decide⟩ rfl).symm
  · obtain ⟨p, q, rfl⟩ : ∃ (p : Fin 5000) (q : Fin 1), x = ix2 p q := ⟨x 0, x 1, eq_ix2 x⟩
    show k2_pay9 (F := Ideal) (k2_pay2 x5) (k2_pay3 x6) (k2_pay4 x7) x8 (k2_pay5 x0 x4) (k2_pay7 x2) (View.ld x3 r2c1) (ix2 p q)
      = blkVal x0 x1 x2 x3 x4 x5 x6 x7 x8 (r2c1.emb (ix2 p q))
    rw [col1_apply, colRect_emb 1 (by decide) _ p q, colRect_ld x3 1 (by decide) _ p 0]
    exact (blkVal_odd x0 x1 x2 x3 x4 x5 x6 x7 x8 p ⟨1, by decide⟩ rfl).symm
  · obtain ⟨p, q, rfl⟩ : ∃ (p : Fin 5000) (q : Fin 1), x = ix2 p q := ⟨x 0, x 1, eq_ix2 x⟩
    show k2_pay8 (F := Ideal) x0 x4 x5 x6 x7 x8 x1 (View.ld x3 r2c0) (ix2 p q)
      = blkVal x0 x1 x2 x3 x4 x5 x6 x7 x8 (r2c0.emb (ix2 p q))
    rw [col0_apply, colRect_emb 0 (by decide) _ p q, colRect_ld x3 0 (by decide) _ p 0]
    exact (blkVal_even x0 x1 x2 x3 x4 x5 x6 x7 x8 p ⟨0, by decide⟩ rfl).symm

theorem blkVal_eq_decAt (x0 x1 x2 : FVec Ideal S5000x64 .f32) (x3 : FVec Ideal S5000x4 .f32) (x4 x5 : FVec Ideal S64x64 .f32) (x6 x7 : FVec Ideal S1x64 .f32)
    (x8 : FVec Ideal S64x1 .f32) (u zp zn : Cert.Spec.Arr 200000 64) (tt : Cert.Spec.Arr 200000 4) (r : Fin 200000) (p : Fin 5000) (col : Fin 4)
    (h0 : ∀ k : Fin 64, x0 (ix2 p k) = u (ix2 r k)) (h1 : ∀ k : Fin 64, x1 (ix2 p k) = zp (ix2 r k)) (h2 : ∀ k : Fin 64, x2 (ix2 p k) = zn (ix2 r k))
    (h3 : x3 (ix2 p col) = tt (ix2 r col)) :
    blkVal x0 x1 x2 x3 x4 x5 x6 x7 x8 (ix2 p col)
      = Cert.Spec.decAt u (if col.val % 2 = 0 then zp else zn) (tt (ix2 r col)) x4 x5 x6 x7 x8 r := by
  rw [decAt_eq_decRow]
  have a0 : (fun k : Fin 64 => x0 (ix2 p k)) = fun k => u (ix2 r k) := funext h0
  have a1 : (fun k : Fin 64 => (if col.val % 2 = 0 then x1 else x2) (ix2 p k)) = fun k => (if col.val % 2 = 0 then zp else zn) (ix2 r k) := by
    funext k
    by_cases hc : col.val % 2 = 0
    · rw [if_pos hc, if_pos hc]; exact h1 k
    · rw [if_neg hc, if_neg hc]; exact h2 k
  show decRow (fun k => x0 (ix2 p k)) (fun k => (if col.val % 2 = 0 then x1 else x2) (ix2 p k)) (x3 (ix2 p col)) x4 x5 x6 x7 x8 = _
  rw [a0, a1, h3]

def G2 (c : Dev nD) : S200000x4.Idx → EReal := fun i =>
  Cert.Spec.decAt (V c main_v61) (if (i 1).val % 2 = 0 then (V c main_v68 : Cert.Spec.Arr 200000 64) else V c main_v75)
    ((V c main_v84 : Cert.Spec.Arr 200000 4) i) (V c main_v85) (V c main_v86) (V c main_v87) (V c main_v88) (V c main_arg11) (i 0)

theorem flushed2_9_eq (c : Dev nD) (t : Fin cfg2.N) :
    (dat2 (F := Ideal) V c).flushed 9 t = ((cfg2.win 9).blk t).view.read (Elt Ideal) (G2 V c) := by
  show (cfg2.win 9).cut (grid2.coords t) ((dat2 (F := Ideal) V c).after 9 t) = _
  rw [after2_9]
  funext y
  obtain ⟨p, col, rfl⟩ : ∃ (p : Fin 5000) (col : Fin 4), y = ix2 p col := ⟨y 0, y 1, eq_ix2 y⟩
  have hp : p.val < 5000 := p.isLt
  have ht : t.val < 40 := lt_of_lt_of_eq t.isLt (show cfg2.N = 40 from N_2)
  obtain ⟨r, hr⟩ : ∃ r : Fin 200000, r.val = t.val * 5000 + p.val := ⟨⟨t.val * 5000 + p.val, by omega⟩, rfl⟩
  have e := idx_facts2 t
  have e0 : win2_9.index t (0 : Fin 2) = t.val := e.2.2.2.2.2.2.2.2.2.1
  have e1 : win2_9.index t (1 : Fin 2) = 0 := e.2.2.2.2.2.2.2.2.2.2
  have hemb : ((cfg2.win 9).blk t).view.emb (ix2 p col) = (ix2 r col : S200000x4.Idx) := by
    funext a
    apply Fin.ext
    match a with
    | ⟨0, _⟩ => show win2_9.index t (0 : Fin 2) * 5000 + 1 * p.val = r.val; rw [e0, hr]; omega
    | ⟨1, _⟩ => show win2_9.index t (1 : Fin 2) * 4 + 1 * col.val = col.val; rw [e1]; omega
  rw [View.read_apply]
  show out2_9 (F := Ideal) (iblk2 V c 0 t) (iblk2 V c 1 t) (iblk2 V c 2 t) (iblk2 V c 3 t) (iblk2 V c 4 t) (iblk2 V c 5 t) (iblk2 V c 6 t)
      (iblk2 V c 7 t) (iblk2 V c 8 t) (ix2 p col) = G2 V c (((cfg2.win 9).blk t).view.emb (ix2 p col))
  rw [hemb]
  refine (out2_9_eq (iblk2 V c 0 t) (iblk2 V c 1 t) (iblk2 V c 2 t) (iblk2 V c 3 t) (iblk2 V c 4 t) (iblk2 V c 5 t) (iblk2 V c 6 t)
      (iblk2 V c 7 t) (iblk2 V c 8 t) (ix2 p col)).trans ?_
  refine (blkVal_eq_decAt (iblk2 V c 0 t) (iblk2 V c 1 t) (iblk2 V c 2 t) (iblk2 V c 3 t) (iblk2 V c 4 t) (iblk2 V c 5 t) (iblk2 V c 6 t)
      (iblk2 V c 7 t) (iblk2 V c 8 t) (V c main_v61) (V c main_v68) (V c main_v75) (V c main_v84) r p col
      (fun k => iblk2_0_apply V c t p k r hr) (fun k => iblk2_1_apply V c t p k r hr) (fun k => iblk2_2_apply V c t p k r hr)
      (iblk2_3_apply V c t p col r hr)).trans ?_
  rw [iblk2_4_eq V c t, iblk2_5_eq V c t, iblk2_6_eq V c t, iblk2_7_eq V c t, iblk2_8_eq V c t]
  rfl

theorem final2_9 (c : Dev nD) : (dat2 (F := Ideal) V c).arrAt 9 cfg2.N = G2 V c :=
  (dat2 (F := Ideal) V c).arrAt_eq_of_cover 9 (G2 V c) (fun t _ => flushed2_9_eq V c t) cover2_arr

end

theorem val2 (V : (c : Dev nD) → (b : Ref sig .tc) → Buf (Elt Ideal) ((c : Thread nD τ).loc b)) (c : Dev nD) (r : Fin 200000) (col : Fin 4) :
    (dat2 (F := Ideal) V c).arrAt 9 cfg2.N (ix2 r col) =
      Cert.Spec.decAt (V c main_v61) (if col.val % 2 = 0 then (V c main_v68 : Cert.Spec.Arr 200000 64) else V c main_v75)
        ((V c main_v84 : Cert.Spec.Arr 200000 4) (ix2 r col)) (V c main_v85) (V c main_v86) (V c main_v87) (V c main_v88) (V c main_arg11) r := by
  rw [final2_9 V c]
  rfl

end Cert.KernelIdeal.Hand

end
-- ==== Proof.Bridge.DecK.lean ====
-- The kernel program's decoder results at an index, from the packed four-column output.
import proofs.«400336_j15375982920184_3_alg».proof.Proof.Bridge.Agree
import proofs.«400336_j15375982920184_3_alg».proof.Proof.KI.Val2
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

open scoped BigOperators

noncomputable section

namespace Cert.Bridge

open Idealize.ShloMosaic Idealize.ShloMosaic.TcCoe Idealize.ShloMosaic.ValueIdx Idealize.SL.Sem

open Cert.KernelIdeal
open Facts₀ Facts

variable (m : (ℓ : Loc nD τ sig) → Buf (Elt Ideal) ℓ) (ρ : Dev nD → PrngReg)

abbrev w1a (c : Dev nD) : Cert.Spec.Arr 64 64 := extractStridedSlice S64x64 ![0, 0] (m ((c.tc : Thread nD τ).loc main_arg9)) slices_S129x64_S64x64_0_0
abbrev w1b (c : Dev nD) : Cert.Spec.Arr 64 64 := extractStridedSlice S64x64 ![64, 0] (m ((c.tc : Thread nD τ).loc main_arg9)) slices_S129x64_S64x64_64_0
abbrev w1t (c : Dev nD) : Cert.Spec.Arr 1 64 := extractStridedSlice S1x64 ![128, 0] (m ((c.tc : Thread nD τ).loc main_arg9)) slices_S129x64_S1x64_128_0
abbrev b1r (c : Dev nD) : Cert.Spec.Arr 1 64 := shapeCast S1x64 (m ((c.tc : Thread nD τ).loc main_arg10)) shapeCasts_S64_S1x64

section Layout

theorem colPairAt (x : Cert.Spec.Arr 200000 4) (offA offB : Fin 2 → Nat)
    (hA : S200000x4.Slices offA S200000x1) (hB : S200000x4.Slices offB S200000x1)
    (ca cb : Fin 4) (hAr : offA 0 = 0) (hAc : offA 1 = ca.val) (hBr : offB 0 = 0) (hBc : offB 1 = cb.val) (q : Fin 400000) :
    concatenate S400000 0
        [⟨S200000, shapeCast S200000 (extractStridedSlice S200000x1 offA x hA) shapeCasts_S200000x1_S200000⟩,
         ⟨S200000, shapeCast S200000 (extractStridedSlice S200000x1 offB x hB) shapeCasts_S200000x1_S200000⟩]
        concatenates_S200000_S200000_S400000_d0 (ix1 q)
      = if hq : q.val < 200000 then x (ix2 (⟨q.val, hq⟩ : Fin 200000) ca)
        else x (ix2 (⟨q.val - 200000, by have := q.isLt; omega⟩ : Fin 200000) cb) := by
  have hcast : ∀ (y : Cert.Spec.Arr 200000 1) (r : Fin 200000),
      shapeCast S200000 y shapeCasts_S200000x1_S200000 (ix1 r) = y (ix2 r (0 : Fin 1)) := fun y r =>
    shapeCast_apply y shapeCasts_S200000x1_S200000 (ix1 r) (ix2 r (0 : Fin 1)) (by
      rw [Shape.rowMajor_val_two, Shape.rowMajor_val_one]
      show r.val * 1 + 0 = r.val
      omega)
  split
  · rename_i hq
    refine (concatenate_pair_apply_left 0 _ _ concatenates_S200000_S200000_S400000_d0 (ix1 q) rfl
      (ix1 (⟨q.val, hq⟩ : Fin 200000)) (fun b => by match b with | ⟨0, _⟩ => rfl)).trans ?_
    refine (hcast _ _).trans ?_
    exact extractStridedSlice_apply offA x hA (ix2 (⟨q.val, hq⟩ : Fin 200000) (0 : Fin 1)) (ix2 (⟨q.val, hq⟩ : Fin 200000) ca)
      (fun a => by
        match a with
        | ⟨0, _⟩ => show q.val = offA 0 + q.val; rw [hAr]; omega
        | ⟨1, _⟩ => show ca.val = offA 1 + 0; rw [hAc]; rfl)
  · rename_i hq
    refine (concatenate_pair_apply_right 0 _ _ concatenates_S200000_S200000_S400000_d0 (ix1 q) rfl rfl
      (ix1 (⟨q.val - 200000, by have := q.isLt; omega⟩ : Fin 200000))
      (fun b hb => by match b with | ⟨0, _⟩ => exact absurd rfl hb)
      (by show q.val - 200000 + 200000 = q.val; omega)).trans ?_
    refine (hcast _ _).trans ?_
    exact extractStridedSlice_apply offB x hB (ix2 (⟨q.val - 200000, by have := q.isLt; omega⟩ : Fin 200000) (0 : Fin 1))
      (ix2 (⟨q.val - 200000, by have := q.isLt; omega⟩ : Fin 200000) cb)
      (fun a => by
        match a with
        | ⟨0, _⟩ => show q.val - 200000 = offB 0 + (q.val - 200000); rw [hBr]; omega
        | ⟨1, _⟩ => show cb.val = offB 1 + 0; rw [hBc]; rfl)

theorem halfColAt (T : Arr1 400000) (off : Fin 1 → Nat) (hs : S400000.Slices off S200000) (r : Fin 200000) (q : Fin 400000)
    (hq : q.val = off 0 + r.val) :
    broadcastInDim S200000x1 ![0] bcast_S200000_S200000x1_0 (extractStridedSlice S200000 off T hs) (ix2 r (0 : Fin 1)) = T (ix1 q) := by
  refine (broadcastInDim_apply ![0] bcast_S200000_S200000x1_0 _ (ix2 r (0 : Fin 1)) (ix1 r) (fun a => ?_)).trans ?_
  · match a with
    | ⟨0, _⟩ => rfl
  · exact extractStridedSlice_apply off T hs (ix1 r) (ix1 q) (fun a => by match a with | ⟨0, _⟩ => exact hq)

theorem packAt (xs : Fin 4 → Cert.Spec.Arr 200000 1) (r : Fin 200000) (col : Fin 4) :
    concatenate S200000x4 1 [⟨S200000x1, xs 0⟩, ⟨S200000x1, xs 1⟩, ⟨S200000x1, xs 2⟩, ⟨S200000x1, xs 3⟩]
        concatenates_S200000x1_S200000x1_S200000x1_S200000x1_S200000x4_d1 (ix2 r col)
      = xs col (ix2 r (0 : Fin 1)) := by
  have hoff : ∀ c : Fin 2, c.cast (rfl : S200000x1.rank = S200000x4.rank) ≠ 1 →
      ((ix2 r (0 : Fin 1) : S200000x1.Idx) c).val = ((ix2 r col : S200000x4.Idx) (c.cast rfl)).val := fun c hc => by
    match c with
    | ⟨0, _⟩ => rfl
    | ⟨1, _⟩ => exact absurd rfl hc
  match col with
  | ⟨0, _⟩ =>
    exact concatenate_apply_piece (t := S200000x4) 1 _ _ (ix2 r (0 : Fin 4)) 0 (by show (0 : Nat) < 4; decide) S200000x1 _ rfl rfl 0 rfl
      (ix2 r (0 : Fin 1)) hoff rfl
  | ⟨1, _⟩ =>
    exact concatenate_apply_piece (t := S200000x4) 1 _ _ (ix2 r (1 : Fin 4)) 1 (by show (1 : Nat) < 4; decide) S200000x1 _ rfl rfl 1 rfl
      (ix2 r (0 : Fin 1)) hoff rfl
  | ⟨2, _⟩ =>
    exact concatenate_apply_piece (t := S200000x4) 1 _ _ (ix2 r (2 : Fin 4)) 2 (by show (2 : Nat) < 4; decide) S200000x1 _ rfl rfl 2 rfl
      (ix2 r (0 : Fin 1)) hoff rfl
  | ⟨3, _⟩ =>
    exact concatenate_apply_piece (t := S200000x4) 1 _ _ (ix2 r (3 : Fin 4)) 3 (by show (3 : Nat) < 4; decide) S200000x1 _ rfl rfl 3 rfl
      (ix2 r (0 : Fin 1)) hoff rfl

end Layout

section KernelSide

open Cert.KernelIdeal.Hand

theorem V10_arg (c : Dev nD) (b : Ref sig .tc) (hb : b ∈ argList) :
    V10 (F := Ideal) m ρ c b = m ((c.tc : Thread nD τ).loc b) :=
  (hkeep 7 (W9 (F := Ideal) m ρ c) b hb).trans (W9_arg m ρ c b hb)

theorem kvKeep (c : Dev nD) (b : Ref sig .tc) (hw : b ∉ hW 8) (hb : b ≠ main_v89) :
    kv m ρ c b = V10 (F := Ideal) m ρ c b :=
  (hskip 8 (W11 (F := Ideal) m ρ c) b hw).trans (W11_keep (F := Ideal) m ρ c b hb)

theorem ops0_v85 (Wv : Valuation τ sig (Elt Ideal)) :
    StableHlo.after Gen.main_part1_ops0 Wv (Proc.devRef .tc main_v85)
      = extractStridedSlice S64x64 ![0, 0] (Wv (Proc.devRef .tc main_arg9)) slices_S129x64_S64x64_0_0 := by
  after_results

theorem ops0_v86 (Wv : Valuation τ sig (Elt Ideal)) :
    StableHlo.after Gen.main_part1_ops0 Wv (Proc.devRef .tc main_v86)
      = extractStridedSlice S64x64 ![64, 0] (Wv (Proc.devRef .tc main_arg9)) slices_S129x64_S64x64_64_0 := by
  after_results

theorem ops0_v87 (Wv : Valuation τ sig (Elt Ideal)) :
    StableHlo.after Gen.main_part1_ops0 Wv (Proc.devRef .tc main_v87)
      = extractStridedSlice S1x64 ![128, 0] (Wv (Proc.devRef .tc main_arg9)) slices_S129x64_S1x64_128_0 := by
  after_results

theorem ops0_v88 (Wv : Valuation τ sig (Elt Ideal)) :
    StableHlo.after Gen.main_part1_ops0 Wv (Proc.devRef .tc main_v88)
      = shapeCast S1x64 (Wv (Proc.devRef .tc main_arg10)) shapeCasts_S64_S1x64 := by
  after_results
  rfl

theorem ops0_v84 (Wv : Valuation τ sig (Elt Ideal)) :
    StableHlo.after Gen.main_part1_ops0 Wv (Proc.devRef .tc main_v84)
      = concatenate S200000x4 1
        [⟨S200000x1, broadcastInDim S200000x1 ![0] bcast_S200000_S200000x1_0
            (extractStridedSlice S200000 ![0] (Wv (Proc.devRef .tc main_arg3)) slices_S400000_S200000_0)⟩,
         ⟨S200000x1, broadcastInDim S200000x1 ![0] bcast_S200000_S200000x1_0
            (extractStridedSlice S200000 ![200000] (Wv (Proc.devRef .tc main_arg3)) slices_S400000_S200000_200000)⟩,
         ⟨S200000x1, broadcastInDim S200000x1 ![0] bcast_S200000_S200000x1_0
            (extractStridedSlice S200000 ![0] (Wv (Proc.devRef .tc main_arg4)) slices_S400000_S200000_0)⟩,
         ⟨S200000x1, broadcastInDim S200000x1 ![0] bcast_S200000_S200000x1_0
            (extractStridedSlice S200000 ![200000] (Wv (Proc.devRef .tc main_arg4)) slices_S400000_S200000_200000)⟩]
        concatenates_S200000x1_S200000x1_S200000x1_S200000x1_S200000x4_d1 := by
  after_results
  rfl

theorem w1aEq (c : Dev nD) : (V10 (F := Ideal) m ρ c main_v85 : Cert.Spec.Arr 64 64) = w1a m c :=
  (ops0_v85 (W9 (F := Ideal) m ρ c)).trans (by rw [W9_arg m ρ c main_arg9 (by decide)])

theorem w1bEq (c : Dev nD) : (V10 (F := Ideal) m ρ c main_v86 : Cert.Spec.Arr 64 64) = w1b m c :=
  (ops0_v86 (W9 (F := Ideal) m ρ c)).trans (by rw [W9_arg m ρ c main_arg9 (by decide)])

theorem w1tEq (c : Dev nD) : (V10 (F := Ideal) m ρ c main_v87 : Cert.Spec.Arr 1 64) = w1t m c :=
  (ops0_v87 (W9 (F := Ideal) m ρ c)).trans (by rw [W9_arg m ρ c main_arg9 (by decide)])

theorem b1rEq (c : Dev nD) : (V10 (F := Ideal) m ρ c main_v88 : Cert.Spec.Arr 1 64) = b1r m c :=
  (ops0_v88 (W9 (F := Ideal) m ρ c)).trans (by rw [W9_arg m ρ c main_arg10 (by decide)])

theorem tPackEq (c : Dev nD) :
    (V10 (F := Ideal) m ρ c main_v84 : Cert.Spec.Arr 200000 4) =
      concatenate S200000x4 1
        [⟨S200000x1, broadcastInDim S200000x1 ![0] bcast_S200000_S200000x1_0
            (extractStridedSlice S200000 ![0] (m ((c.tc : Thread nD τ).loc main_arg3)) slices_S400000_S200000_0)⟩,
         ⟨S200000x1, broadcastInDim S200000x1 ![0] bcast_S200000_S200000x1_0
            (extractStridedSlice S200000 ![200000] (m ((c.tc : Thread nD τ).loc main_arg3)) slices_S400000_S200000_200000)⟩,
         ⟨S200000x1, broadcastInDim S200000x1 ![0] bcast_S200000_S200000x1_0
            (extractStridedSlice S200000 ![0] (m ((c.tc : Thread nD τ).loc main_arg4)) slices_S400000_S200000_0)⟩,
         ⟨S200000x1, broadcastInDim S200000x1 ![0] bcast_S200000_S200000x1_0
            (extractStridedSlice S200000 ![200000] (m ((c.tc : Thread nD τ).loc main_arg4)) slices_S400000_S200000_200000)⟩]
        concatenates_S200000x1_S200000x1_S200000x1_S200000x1_S200000x4_d1 := by
  refine (ops0_v84 (W9 (F := Ideal) m ρ c)).trans ?_
  rw [W9_arg m ρ c main_arg3 (by decide), W9_arg m ρ c main_arg4 (by decide)]

theorem tPackAt (c : Dev nD) (r : Fin 200000) (q : Fin 400000) :
    (q.val = r.val →
      (V10 (F := Ideal) m ρ c main_v84 : Cert.Spec.Arr 200000 4) (ix2 r (0 : Fin 4)) = (m ((c.tc : Thread nD τ).loc main_arg3) : Arr1 400000) (ix1 q)
      ∧ (V10 (F := Ideal) m ρ c main_v84 : Cert.Spec.Arr 200000 4) (ix2 r (2 : Fin 4)) = (m ((c.tc : Thread nD τ).loc main_arg4) : Arr1 400000) (ix1 q))
    ∧ (q.val = 200000 + r.val →
      (V10 (F := Ideal) m ρ c main_v84 : Cert.Spec.Arr 200000 4) (ix2 r (1 : Fin 4)) = (m ((c.tc : Thread nD τ).loc main_arg3) : Arr1 400000) (ix1 q)
      ∧ (V10 (F := Ideal) m ρ c main_v84 : Cert.Spec.Arr 200000 4) (ix2 r (3 : Fin 4)) = (m ((c.tc : Thread nD τ).loc main_arg4) : Arr1 400000) (ix1 q)) := by
  rw [tPackEq m ρ c]
  refine ⟨fun hq => ⟨?_, ?_⟩, fun hq => ⟨?_, ?_⟩⟩
  · exact (packAt ![_, _, _, _] r 0).trans (halfColAt _ ![0] slices_S400000_S200000_0 r q (by show q.val = 0 + r.val; omega))
  · exact (packAt ![_, _, _, _] r 2).trans (halfColAt _ ![0] slices_S400000_S200000_0 r q (by show q.val = 0 + r.val; omega))
  · exact (packAt ![_, _, _, _] r 1).trans (halfColAt _ ![200000] slices_S400000_S200000_200000 r q hq)
  · exact (packAt ![_, _, _, _] r 3).trans (halfColAt _ ![200000] slices_S400000_S200000_200000 r q hq)

theorem outEvenAt (c : Dev nD) (r : Fin 200000) (col : Fin 4) (h : col.val % 2 = 0) :
    (W11 (F := Ideal) m ρ c (Proc.devRef .tc main_v89) : Cert.Spec.Arr 200000 4) (ix2 r col)
      = Cert.Spec.decAt (kv m ρ c main_v61) (kv m ρ c main_v68) ((V10 (F := Ideal) m ρ c main_v84 : Cert.Spec.Arr 200000 4) (ix2 r col))
          (w1a m c) (w1b m c) (w1t m c) (b1r m c) (m ((c.tc : Thread nD τ).loc main_arg11)) r := by
  rw [kvKeep m ρ c main_v61 (by decide) (by decide), kvKeep m ρ c main_v68 (by decide) (by decide),
    ← w1aEq m ρ c, ← w1bEq m ρ c, ← w1tEq m ρ c, ← b1rEq m ρ c, ← V10_arg m ρ c main_arg11 (by decide)]
  refine (congrFun (W11_arr (F := Ideal) m ρ c 9) (ix2 r col)).trans ?_
  refine (val2 (V10 (F := Ideal) m ρ) c r col).trans ?_
  rw [if_pos h]

theorem outOddAt (c : Dev nD) (r : Fin 200000) (col : Fin 4) (h : col.val % 2 = 1) :
    (W11 (F := Ideal) m ρ c (Proc.devRef .tc main_v89) : Cert.Spec.Arr 200000 4) (ix2 r col)
      = Cert.Spec.decAt (kv m ρ c main_v61) (kv m ρ c main_v75) ((V10 (F := Ideal) m ρ c main_v84 : Cert.Spec.Arr 200000 4) (ix2 r col))
          (w1a m c) (w1b m c) (w1t m c) (b1r m c) (m ((c.tc : Thread nD τ).loc main_arg11)) r := by
  rw [kvKeep m ρ c main_v61 (by decide) (by decide), kvKeep m ρ c main_v75 (by decide) (by decide),
    ← w1aEq m ρ c, ← w1bEq m ρ c, ← w1tEq m ρ c, ← b1rEq m ρ c, ← V10_arg m ρ c main_arg11 (by decide)]
  refine (congrFun (W11_arr (F := Ideal) m ρ c 9) (ix2 r col)).trans ?_
  refine (val2 (V10 (F := Ideal) m ρ) c r col).trans ?_
  rw [if_neg (by omega)]

theorem kv94At (c : Dev nD) (q : Fin 400000) :
    (kv m ρ c main_v94 : Arr1 400000) (ix1 q)
      = if hq : q.val < 200000 then
          (W11 (F := Ideal) m ρ c (Proc.devRef .tc main_v89) : Cert.Spec.Arr 200000 4) (ix2 (⟨q.val, hq⟩ : Fin 200000) (0 : Fin 4))
        else (W11 (F := Ideal) m ρ c (Proc.devRef .tc main_v89) : Cert.Spec.Arr 200000 4)
          (ix2 (⟨q.val - 200000, by have := q.isLt; omega⟩ : Fin 200000) (1 : Fin 4)) := by
  show StableHlo.after Gen.main_part1_ops1 (W11 (F := Ideal) m ρ c) (Proc.devRef .tc main_v94) (ix1 q) = _
  after_results
  exact colPairAt _ _ _ _ _ 0 1 rfl rfl rfl rfl q

theorem kv99At (c : Dev nD) (q : Fin 400000) :
    (kv m ρ c main_v99 : Arr1 400000) (ix1 q)
      = if hq : q.val < 200000 then
          (W11 (F := Ideal) m ρ c (Proc.devRef .tc main_v89) : Cert.Spec.Arr 200000 4) (ix2 (⟨q.val, hq⟩ : Fin 200000) (2 : Fin 4))
        else (W11 (F := Ideal) m ρ c (Proc.devRef .tc main_v89) : Cert.Spec.Arr 200000 4)
          (ix2 (⟨q.val - 200000, by have := q.isLt; omega⟩ : Fin 200000) (3 : Fin 4)) := by
  show StableHlo.after Gen.main_part1_ops1 (W11 (F := Ideal) m ρ c) (Proc.devRef .tc main_v99) (ix1 q) = _
  after_results
  exact colPairAt _ _ _ _ _ 2 3 rfl rfl rfl rfl q

end KernelSide

theorem kdec0 (c : Dev nD) (q : Fin 400000) :
    (kv m ρ c main_v94 : Arr1 400000) (ix1 q) =
      if hq : q.val < 200000 then
        Cert.Spec.decAt (kv m ρ c main_v61) (kv m ρ c main_v68) ((m ((c.tc : Thread nD τ).loc main_arg3) : Arr1 400000) (ix1 q))
          (w1a m c) (w1b m c) (w1t m c) (b1r m c) (m ((c.tc : Thread nD τ).loc main_arg11)) ⟨q.val, hq⟩
      else
        Cert.Spec.decAt (kv m ρ c main_v61) (kv m ρ c main_v75) ((m ((c.tc : Thread nD τ).loc main_arg3) : Arr1 400000) (ix1 q))
          (w1a m c) (w1b m c) (w1t m c) (b1r m c) (m ((c.tc : Thread nD τ).loc main_arg11)) ⟨q.val - 200000, by have := q.isLt; omega⟩ := by
  rw [kv94At m ρ c q]
  by_cases hq : q.val < 200000
  · rw [dif_pos hq, dif_pos hq, outEvenAt m ρ c ⟨q.val, hq⟩ 0 rfl, ((tPackAt m ρ c ⟨q.val, hq⟩ q).1 rfl).1]
  · rw [dif_neg hq, dif_neg hq, outOddAt m ρ c ⟨q.val - 200000, by have := q.isLt; omega⟩ 1 rfl,
      ((tPackAt m ρ c ⟨q.val - 200000, by have := q.isLt; omega⟩ q).2 (by show q.val = 200000 + (q.val - 200000); omega)).1]

theorem kdec1 (c : Dev nD) (q : Fin 400000) :
    (kv m ρ c main_v99 : Arr1 400000) (ix1 q) =
      if hq : q.val < 200000 then
        Cert.Spec.decAt (kv m ρ c main_v61) (kv m ρ c main_v68) ((m ((c.tc : Thread nD τ).loc main_arg4) : Arr1 400000) (ix1 q))
          (w1a m c) (w1b m c) (w1t m c) (b1r m c) (m ((c.tc : Thread nD τ).loc main_arg11)) ⟨q.val, hq⟩
      else
        Cert.Spec.decAt (kv m ρ c main_v61) (kv m ρ c main_v75) ((m ((c.tc : Thread nD τ).loc main_arg4) : Arr1 400000) (ix1 q))
          (w1a m c) (w1b m c) (w1t m c) (b1r m c) (m ((c.tc : Thread nD τ).loc main_arg11)) ⟨q.val - 200000, by have := q.isLt; omega⟩ := by
  rw [kv99At m ρ c q]
  by_cases hq : q.val < 200000
  · rw [dif_pos hq, dif_pos hq, outEvenAt m ρ c ⟨q.val, hq⟩ 2 rfl, ((tPackAt m ρ c ⟨q.val, hq⟩ q).1 rfl).2]
  · rw [dif_neg hq, dif_neg hq, outOddAt m ρ c ⟨q.val - 200000, by have := q.isLt; omega⟩ 3 rfl,
      ((tPackAt m ρ c ⟨q.val - 200000, by have := q.isLt; omega⟩ q).2 (by show q.val = 200000 + (q.val - 200000); omega)).2]

end Cert.Bridge

end
-- ==== Proof.Bridge.Dec.lean ====
-- The last two results: the reference's decoder equals the kernel program's, pair by pair.
import proofs.«400336_j15375982920184_3_alg».proof.Proof.Bridge.Gat
import proofs.«400336_j15375982920184_3_alg».proof.Proof.Bridge.DecMath
import proofs.«400336_j15375982920184_3_alg».proof.Proof.Bridge.DecK
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

open scoped BigOperators

noncomputable section

namespace Cert.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

namespace Dec

section Reference

open Cert.ReferenceIdeal Cert.ReferenceIdeal.Gen Cert.ReferenceIdeal.Hand Idealize.ShloMosaic.StableHlo

theorem rv_cut (c : Dev nD) : ∃ P : Valuation τ sig (Elt Ideal),
    (∀ b : Ref sig .tc, rv m' c b = after ops4 (after ops3 P) (Proc.devRef .tc b)) ∧
    (∀ b : Ref sig .tc, b.idx.val < 137 → rv m' c b = P (Proc.devRef .tc b)) ∧
    P (Proc.devRef .tc main_v90) = concatenate S400000x64 0
      [⟨S200000x64, P (Proc.devRef .tc main_v75)⟩, ⟨S200000x64, P (Proc.devRef .tc main_v75)⟩]
      concatenates_S200000x64_S200000x64_S400000x64_d0 := by
  refine ⟨after ops2 (after ops1 (after ops0 (launchContents m' c))), fun b => ?_, fun b hb => Gat.rv_third m' c b hb, ?_⟩
  · show after (ops0 ++ ops1 ++ ops2 ++ ops3 ++ ops4) (launchContents m' c) (Proc.devRef .tc b) = _
    rw [Gat.after_append, Gat.after_append, Gat.after_append, Gat.after_append]
  · generalize after ops1 (after ops0 (launchContents m' c)) = Q
    after_results

set_option maxHeartbeats 4000000 in
theorem rv_v100 (c : Dev nD) :
    (rv m' c main_v100 : Arr1 400000) = refDecode (rv m' c main_v75) (rv m' c main_v82) (rv m' c main_v89)
      (rv m' c main_arg3) (rv m' c main_arg9) (rv m' c main_arg10) (rv m' c main_arg11) := by
  obtain ⟨P, hP, hlow, e90⟩ := rv_cut m' c
  rw [hP main_v100, hlow main_v75 (by decide), hlow main_v82 (by decide), hlow main_v89 (by decide), hlow main_arg3 (by decide),
    hlow main_arg9 (by decide), hlow main_arg10 (by decide), hlow main_arg11 (by decide)]
  after_results_simp
  dsimp only [Matrix.cons_val]
  repeat (first
    | rw [unary_result] | rw [binary_result]
    | (rw [unary_result_ne]; rotate_left; decide)
    | (rw [binary_result_ne]; rotate_left; decide))
  simp only [TRef.ofBuf, TRef.toBuf, cast_eq]
  rw [e90]
  rfl

set_option maxHeartbeats 8000000 in
theorem rv_v109 (c : Dev nD) :
    (rv m' c main_v109 : Arr1 400000) = refDecode (rv m' c main_v75) (rv m' c main_v82) (rv m' c main_v89)
      (rv m' c main_arg4) (rv m' c main_arg9) (rv m' c main_arg10) (rv m' c main_arg11) := by
  obtain ⟨P, hP, hlow, e90⟩ := rv_cut m' c
  rw [hP main_v109, hlow main_v75 (by decide), hlow main_v82 (by decide), hlow main_v89 (by decide), hlow main_arg4 (by decide),
    hlow main_arg9 (by decide), hlow main_arg10 (by decide), hlow main_arg11 (by decide)]
  after_results_simp
  dsimp only [Matrix.cons_val]
  repeat (first
    | rw [unary_result] | rw [binary_result]
    | (rw [unary_result_ne]; rotate_left; decide)
    | (rw [binary_result_ne]; rotate_left; decide)
    | (rw [nullary_result_ne]; rotate_left; decide)
    | (rw [ternary_result_ne]; rotate_left; decide)
    | (rw [reshape_result_ne]; rotate_left; decide)
    | (rw [nary_result_ne]; rotate_left; decide))
  simp only [TRef.ofBuf, TRef.toBuf, cast_eq]
  rw [e90]
  rfl

end Reference

end Dec

theorem dec0 (h : Agree m m') (c : Dev Cert.KernelIdeal.nD) :
    (rv m' c Cert.ReferenceIdeal.main_v100 : Arr1 400000) = kv m ρ c Cert.KernelIdeal.main_v94 := by
  funext i
  obtain ⟨q, rfl⟩ : ∃ q : Fin 400000, i = ix1 q := ⟨i 0, eq_ix1 i⟩
  have e75 := gat0 m ρ m' h c
  have e82 := gat1 m ρ m' h c
  have e89 := gat2 m ρ m' h c
  have e3 : rv m' c Cert.ReferenceIdeal.main_arg3 = m ((c.tc : Thread Cert.KernelIdeal.nD Cert.KernelIdeal.τ).loc Cert.KernelIdeal.main_arg3) :=
    (Cert.ReferenceIdeal.Hand.R_arg m' c Cert.ReferenceIdeal.main_arg3 (by decide)).trans (h.a3 c)
  have e9 : rv m' c Cert.ReferenceIdeal.main_arg9 = m ((c.tc : Thread Cert.KernelIdeal.nD Cert.KernelIdeal.τ).loc Cert.KernelIdeal.main_arg9) :=
    (Cert.ReferenceIdeal.Hand.R_arg m' c Cert.ReferenceIdeal.main_arg9 (by decide)).trans (h.a9 c)
  have e10 : rv m' c Cert.ReferenceIdeal.main_arg10 = m ((c.tc : Thread Cert.KernelIdeal.nD Cert.KernelIdeal.τ).loc Cert.KernelIdeal.main_arg10) :=
    (Cert.ReferenceIdeal.Hand.R_arg m' c Cert.ReferenceIdeal.main_arg10 (by decide)).trans (h.a10 c)
  have e11 : rv m' c Cert.ReferenceIdeal.main_arg11 = m ((c.tc : Thread Cert.KernelIdeal.nD Cert.KernelIdeal.τ).loc Cert.KernelIdeal.main_arg11) :=
    (Cert.ReferenceIdeal.Hand.R_arg m' c Cert.ReferenceIdeal.main_arg11 (by decide)).trans (h.a11 c)
  rw [Dec.rv_v100 m' c, Cert.ReferenceIdeal.Hand.refDecode_at _ _ _ _ _ _ _ Cert.KernelIdeal.Gen.slices_S129x64_S64x64_0_0
    Cert.KernelIdeal.Gen.slices_S129x64_S64x64_64_0 Cert.KernelIdeal.Gen.slices_S129x64_S1x64_128_0 Cert.KernelIdeal.Gen.shapeCasts_S64_S1x64 q,
    kdec0 m ρ c q, e75, e82, e89, e3, e9, e10, e11]
theorem dec1 (h : Agree m m') (c : Dev Cert.KernelIdeal.nD) :
    (rv m' c Cert.ReferenceIdeal.main_v109 : Arr1 400000) = kv m ρ c Cert.KernelIdeal.main_v99 := by
  funext i
  obtain ⟨q, rfl⟩ : ∃ q : Fin 400000, i = ix1 q := ⟨i 0, eq_ix1 i⟩
  have e75 := gat0 m ρ m' h c
  have e82 := gat1 m ρ m' h c
  have e89 := gat2 m ρ m' h c
  have e4 : rv m' c Cert.ReferenceIdeal.main_arg4 = m ((c.tc : Thread Cert.KernelIdeal.nD Cert.KernelIdeal.τ).loc Cert.KernelIdeal.main_arg4) :=
    (Cert.ReferenceIdeal.Hand.R_arg m' c Cert.ReferenceIdeal.main_arg4 (by decide)).trans (h.a4 c)
  have e9 : rv m' c Cert.ReferenceIdeal.main_arg9 = m ((c.tc : Thread Cert.KernelIdeal.nD Cert.KernelIdeal.τ).loc Cert.KernelIdeal.main_arg9) :=
    (Cert.ReferenceIdeal.Hand.R_arg m' c Cert.ReferenceIdeal.main_arg9 (by decide)).trans (h.a9 c)
  have e10 : rv m' c Cert.ReferenceIdeal.main_arg10 = m ((c.tc : Thread Cert.KernelIdeal.nD Cert.KernelIdeal.τ).loc Cert.KernelIdeal.main_arg10) :=
    (Cert.ReferenceIdeal.Hand.R_arg m' c Cert.ReferenceIdeal.main_arg10 (by decide)).trans (h.a10 c)
  have e11 : rv m' c Cert.ReferenceIdeal.main_arg11 = m ((c.tc : Thread Cert.KernelIdeal.nD Cert.KernelIdeal.τ).loc Cert.KernelIdeal.main_arg11) :=
    (Cert.ReferenceIdeal.Hand.R_arg m' c Cert.ReferenceIdeal.main_arg11 (by decide)).trans (h.a11 c)
  rw [Dec.rv_v109 m' c, Cert.ReferenceIdeal.Hand.refDecode_at _ _ _ _ _ _ _ Cert.KernelIdeal.Gen.slices_S129x64_S64x64_0_0
    Cert.KernelIdeal.Gen.slices_S129x64_S64x64_64_0 Cert.KernelIdeal.Gen.slices_S129x64_S1x64_128_0 Cert.KernelIdeal.Gen.shapeCasts_S64_S1x64 q,
    kdec1 m ρ c q, e75, e82, e89, e4, e9, e10, e11]

end Cert.Bridge

end
-- ==== Proof.lean ====
-- The certificate: both kernel programs and the reference run and leave their arguments as launched, and the reference's four results equal the idealized kernel program's.
import proofs.«400336_j15375982920184_3_alg».proof.Defs
import proofs.«400336_j15375982920184_3_alg».proof.Proof.Gen.Kernel
import proofs.«400336_j15375982920184_3_alg».proof.Proof.Gen.KernelIdeal
import proofs.«400336_j15375982920184_3_alg».proof.Proof.Gen.ReferenceIdeal
import proofs.«400336_j15375982920184_3_alg».proof.Proof.Gen.Pre_finite_inputs
import proofs.«400336_j15375982920184_3_alg».proof.Proof.K.Run
import proofs.«400336_j15375982920184_3_alg».proof.Proof.KI.Run
import proofs.«400336_j15375982920184_3_alg».proof.Proof.Ref.Run
import proofs.«400336_j15375982920184_3_alg».proof.Proof.Bridge.Dec
import Idealize.ShloMosaic.Adequacy
import Idealize.ShloMosaic.Init

noncomputable section

namespace Cert.Proof

open Idealize.ShloMosaic Idealize.SL.Sem

-- Each kernel program's run leaves every argument array as launched.
theorem frame_k : Cert.frame_Kernel := fun m g _ =>
  (θ_run Cert.Kernel.defs _ _).mono
    (fun _ h c => by refine ⟨?_, ?_, ?_, ?_, ?_, ?_, ?_, ?_, ?_, ?_, ?_, ?_, ?_, ?_, ?_, ?_, ?_⟩ <;> exact h c _ (by decide))
    (Cert.Kernel.Hand.frame_args (F := Bits) m g)

theorem frame_ki : Cert.frame_KernelIdeal := fun m g _ =>
  (θ_run Cert.KernelIdeal.defs _ _).mono
    (fun _ h c => by refine ⟨?_, ?_, ?_, ?_, ?_, ?_, ?_, ?_, ?_, ?_, ?_, ?_, ?_, ?_, ?_, ?_, ?_⟩ <;> exact h c _ (by decide))
    (Cert.KernelIdeal.Hand.frame_args (F := Ideal) m g)

-- So does the reference's: none of its operations writes an argument.
theorem frame_ri : Cert.frame_ReferenceIdeal := fun m g _ =>
  (θ_run Cert.ReferenceIdeal.defs _ _).mono
    (fun _ h c => by refine ⟨?_, ?_, ?_, ?_, ?_, ?_, ?_, ?_, ?_, ?_, ?_, ?_, ?_, ?_, ?_, ?_, ?_⟩ <;> exact (h c _).trans (Cert.ReferenceIdeal.Hand.R_arg m c _ (by decide)))
    (Cert.ReferenceIdeal.Hand.run (F := Ideal) m g)

-- Both runs end with the four results at the kernel program's final contents of its result buffers: the reference's
-- are equal to them buffer by buffer.
theorem algebraic : Cert.algebraic_KernelIdeal_ReferenceIdeal := by
  intro m g m' g' _ hagree
  have hA : Cert.Bridge.Agree m m' := by
    constructor <;> intro c <;> simp only [hagree c]
  refine ⟨fun c => Cert.Bridge.kv m g c Cert.KernelIdeal.main_v52, fun c => Cert.Bridge.kv m g c Cert.KernelIdeal.main_v54,
    fun c => Cert.Bridge.kv m g c Cert.KernelIdeal.main_v94, fun c => Cert.Bridge.kv m g c Cert.KernelIdeal.main_v99, ?_, ?_⟩
  · exact (θ_run Cert.KernelIdeal.defs _ _).mono
      (fun _ h c => by
        refine ⟨h c _ (by decide), h c _ (by decide), h c _ (by decide), h c _ (by decide), ?_, ?_, ?_, ?_, ?_, ?_, ?_, ?_, ?_, ?_, ?_, ?_, ?_, ?_, ?_, ?_, ?_⟩ <;>
          exact (h c _ (by decide)).trans (Cert.KernelIdeal.Hand.W12_arg m g c _ (by decide)))
      (Cert.KernelIdeal.Hand.run_at (F := Ideal) m g)
  · exact (θ_run Cert.ReferenceIdeal.defs _ _).mono
      (fun _ h c => by
        refine ⟨(h c _).trans (Cert.Bridge.mid0 m g m' hA c), (h c _).trans (Cert.Bridge.mid1 m g m' hA c),
          (h c _).trans (Cert.Bridge.dec0 m g m' hA c), (h c _).trans (Cert.Bridge.dec1 m g m' hA c), ?_, ?_, ?_, ?_, ?_, ?_, ?_, ?_, ?_, ?_, ?_, ?_, ?_, ?_, ?_, ?_, ?_⟩ <;>
          exact (h c _).trans (Cert.ReferenceIdeal.Hand.R_arg m' c _ (by decide)))
      (Cert.ReferenceIdeal.Hand.run (F := Ideal) m' g')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
